-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v32)) (v1 : (c : Dev Cert.KernelIdeal.nD) → Buf (Elt Ideal) ((c.tc : Thread Cert.KernelIdeal.nD Cert.KernelIdeal.τ).loc Cert.KernelIdeal.main_v29_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_v29_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S4096x16 : Shape := ⟨2, ![4096, 16]⟩
abbrev S1x8 : Shape := ⟨2, ![1, 8]⟩
abbrev S4096 : Shape := ⟨1, ![4096]⟩
abbrev S152x4096 : Shape := ⟨2, ![152, 4096]⟩
abbrev S4096x4096 : Shape := ⟨2, ![4096, 4096]⟩
abbrev S8264x64 : Shape := ⟨2, ![8264, 64]⟩
abbrev S64 : Shape := ⟨1, ![64]⟩
abbrev S64x64 : Shape := ⟨2, ![64, 64]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S4096x16 : S_.BroadcastsInDim S4096x16 (![] : Fin 0 → Fin S4096x16.rank)
  reducesTo_S4096x16_S_d0_1 : S4096x16.ReducesTo [0, 1] S_
  bcast_S_S1x8 : S_.BroadcastsInDim S1x8 (![] : Fin 0 → Fin S1x8.rank)
  reducesTo_S1x8_S_d0_1 : S1x8.ReducesTo [0, 1] S_
  bcast_S_S152x4096 : S_.BroadcastsInDim S152x4096 (![] : Fin 0 → Fin S152x4096.rank)
  reducesTo_S152x4096_S_d0_1 : S152x4096.ReducesTo [0, 1] S_
  bcast_S_S4096 : S_.BroadcastsInDim S4096 (![] : Fin 0 → Fin S4096.rank)
  reducesTo_S4096_S_d0 : S4096.ReducesTo [0] S_
  bcast_S_S4096x4096 : S_.BroadcastsInDim S4096x4096 (![] : Fin 0 → Fin S4096x4096.rank)
  reducesTo_S4096x4096_S_d0_1 : S4096x4096.ReducesTo [0, 1] S_
  bcast_S_S8264x64 : S_.BroadcastsInDim S8264x64 (![] : Fin 0 → Fin S8264x64.rank)
  reducesTo_S8264x64_S_d0_1 : S8264x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg9 : FVec F S8264x64 .f32) (main_arg10 : FVec F S64 .f32) (main_arg11 : FVec F S64x64 .f32) (main_arg12 : FVec F S64 .f32) (main_v33 : IVec S_ 1) : IVec S_ 1 :=
  let main_v34 : FVec F S8264x64 .f32 := Host.absf main_arg9
  let main_cst_12 : FVec F S_ .f32 := constant S_ .f32 0x7F800000#32
  let main_v35 : FVec F S8264x64 .f32 := broadcastInDim S8264x64 ![] bcast_S_S8264x64 main_cst_12
  let main_v36 : IVec S8264x64 1 := cmpf .olt main_v34 main_v35
  let main_c_13 : IVec S_ 1 := constantI S_ 1 1#1
  let main_v37 : IVec S_ 1 := (fun x v => Host.reduce IntOp.andi x v reducesTo_S8264x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg6 : FVec F S4096 .f32) (main_arg7 : FVec F S4096x4096 .f32) (main_arg8 : FVec F S4096 .f32) (main_arg9 : FVec F S8264x64 .f32) (main_arg10 : FVec F S64 .f32) (main_arg11 : FVec F S64x64 .f32) (main_arg12 : FVec F S64 .f32) (main_v13 : IVec S_ 1) (main_v16 : IVec S152x4096 1) : IVec S_ 1 :=
  let main_c_5 : IVec S_ 1 := constantI S_ 1 1#1
  let main_v17 : IVec S_ 1 := (fun x v => Host.reduce IntOp.andi x v reducesTo_S152x4096_S_d0_1 h_S_) main_v16 main_c_5
  let main_v18 : IVec S_ 1 := andi main_v13 main_v17
  let main_v19 : FVec F S4096 .f32 := Host.absf main_arg6
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096x4096 .f32 := Host.absf main_arg7
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  let main_v29 : FVec F S4096 .f32 := Host.absf main_arg8
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S8192x64 .f32) (main_arg1 : FVec F S4096x16 .f32) (main_arg2 : FVec F S1x8 .f32) (main_arg3 : IVec S4096 32) (main_arg4 : IVec S4096 32) (main_arg5 : FVec F S152x4096 .f32) (main_arg6 : FVec F S4096 .f32) (main_arg7 : FVec F S4096x4096 .f32) (main_arg8 : FVec F S4096 .f32) (main_arg9 : FVec F S8264x64 .f32) (main_arg10 : FVec F S64 .f32) (main_arg11 : FVec F S64x64 .f32) (main_arg12 : FVec F S64 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S4096x16 .f32 := Host.absf main_arg1
  let main_cst_0 : FVec F S_ .f32 := constant S_ .f32 0x7F800000#32
  let main_v5 : FVec F S4096x16 .f32 := broadcastInDim S4096x16 ![] bcast_S_S4096x16 main_cst_0
  let main_v6 : IVec S4096x16 1 := cmpf .olt main_v4 main_v5
  let main_c_1 : IVec S_ 1 := constantI S_ 1 1#1
  let main_v7 : IVec S_ 1 := (fun x v => Host.reduce IntOp.andi x v reducesTo_S4096x16_S_d0_1 h_S_) main_v6 main_c_1
  let main_v8 : IVec S_ 1 := andi main_v3 main_v7
  let main_v9 : FVec F S1x8 .f32 := Host.absf main_arg2
  let main_cst_2 : FVec F S_ .f32 := constant S_ .f32 0x7F800000#32
  let main_v10 : FVec F S1x8 .f32 := broadcastInDim S1x8 ![] bcast_S_S1x8 main_cst_2
  let main_v11 : IVec S1x8 1 := cmpf .olt main_v9 main_v10
  let main_c_3 : IVec S_ 1 := constantI S_ 1 1#1
  let main_v12 : IVec S_ 1 := (fun x v => Host.reduce IntOp.andi x v reducesTo_S1x8_S_d0_1 h_S_) main_v11 main_c_3
  let main_v13 : IVec S_ 1 := andi main_v8 main_v12
  let main_v14 : FVec F S152x4096 .f32 := Host.absf main_arg5
  let main_cst_4 : FVec F S_ .f32 := constant S_ .f32 0x7F800000#32
  let main_v15 : FVec F S152x4096 .f32 := broadcastInDim S152x4096 ![] bcast_S_S152x4096 main_cst_4
  let main_v16 : IVec S152x4096 1 := cmpf .olt main_v14 main_v15
  fn_part1 (F := F) main_arg6 main_arg7 main_arg8 main_arg9 main_arg10 main_arg11 main_arg12 main_v13 main_v16
-- ==== Kernel.lean ====
abbrev S8192x64 : Shape := ⟨2, ![8192, 64]⟩
abbrev S4096x16 : Shape := ⟨2, ![4096, 16]⟩
abbrev S1x8 : Shape := ⟨2, ![1, 8]⟩
abbrev S4096 : Shape := ⟨1, ![4096]⟩
abbrev S152x4096 : Shape := ⟨2, ![152, 4096]⟩
abbrev S4096x4096 : Shape := ⟨2, ![4096, 4096]⟩
abbrev S8264x64 : Shape := ⟨2, ![8264, 64]⟩
abbrev S64 : Shape := ⟨1, ![64]⟩
abbrev S64x64 : Shape := ⟨2, ![64, 64]⟩
abbrev S_ : Shape := ⟨0, ![]⟩
abbrev S4096x1 : Shape := ⟨2, ![4096, 1]⟩
abbrev S4096x64 : Shape := ⟨2, ![4096, 64]⟩
abbrev S4096x8 : Shape := ⟨2, ![4096, 8]⟩
abbrev S4096x152 : Shape := ⟨2, ![4096, 152]⟩
abbrev S1x4096 : Shape := ⟨2, ![1, 4096]⟩
abbrev S1x64 : Shape := ⟨2, ![1, 64]⟩
abbrev S8x64 : Shape := ⟨2, ![8, 64]⟩
abbrev S4096x128 : Shape := ⟨2, ![4096, 128]⟩
abbrev S512x152 : Shape := ⟨2, ![512, 152]⟩
abbrev S152x256 : Shape := ⟨2, ![152, 256]⟩
abbrev S1x256 : Shape := ⟨2, ![1, 256]⟩
abbrev S256x4096 : Shape := ⟨2, ![256, 4096]⟩
abbrev S512x4096 : Shape := ⟨2, ![512, 4096]⟩
abbrev S512x128 : Shape := ⟨2, ![512, 128]⟩
abbrev S512x256 : Shape := ⟨2, ![512, 256]⟩
abbrev S512x64 : Shape := ⟨2, ![512, 64]⟩
abbrev S512x1 : Shape := ⟨2, ![512, 1]⟩

abbrev nBuf : Space → Nat
  | .hbm => 51
  | .vmem => 28
  | .smem => 0
  | _ => 0

abbrev bufTy : (tb : Table) → Fin (tcTables nBuf tb) → BufTy
  | .hbm, ⟨0, _⟩ => ⟨S8192x64, .f32⟩
  | .hbm, ⟨1, _⟩ => ⟨S4096x16, .f32⟩
  | .hbm, ⟨2, _⟩ => ⟨S1x8, .f32⟩
  | .hbm, ⟨3, _⟩ => ⟨S4096, .i32⟩
  | .hbm, ⟨4, _⟩ => ⟨S4096, .i32⟩
  | .hbm, ⟨5, _⟩ => ⟨S152x4096, .f32⟩
  | .hbm, ⟨6, _⟩ => ⟨S4096, .f32⟩
  | .hbm, ⟨7, _⟩ => ⟨S4096x4096, .f32⟩
  | .hbm, ⟨8, _⟩ => ⟨S4096, .f32⟩
  | .hbm, ⟨9, _⟩ => ⟨S8264x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S_, .i32⟩
  | .hbm, ⟨14, _⟩ => ⟨S4096, .i32⟩
  | .hbm, ⟨15, _⟩ => ⟨S4096, .i1⟩
  | .hbm, ⟨16, _⟩ => ⟨S_, .i32⟩
  | .hbm, ⟨17, _⟩ => ⟨S4096, .i32⟩
  | .hbm, ⟨18, _⟩ => ⟨S4096, .i32⟩
  | .hbm, ⟨19, _⟩ => ⟨S4096, .i32⟩
  | .hbm, ⟨20, _⟩ => ⟨S4096x1, .i32⟩
  | .hbm, ⟨21, _⟩ => ⟨S4096x64, .f32⟩
  | .hbm, ⟨22, _⟩ => ⟨S_, .i32⟩
  | .hbm, ⟨23, _⟩ => ⟨S4096, .i32⟩
  | .hbm, ⟨24, _⟩ => ⟨S4096, .i1⟩
  | .hbm, ⟨25, _⟩ => ⟨S_, .i32⟩
  | .hbm, ⟨26, _⟩ => ⟨S4096, .i32⟩
  | .hbm, ⟨27, _⟩ => ⟨S4096, .i32⟩
  | .hbm, ⟨28, _⟩ => ⟨S4096, .i32⟩
  | .hbm, ⟨29, _⟩ => ⟨S4096x1, .i32⟩
  | .hbm, ⟨30, _⟩ => ⟨S4096x64, .f32⟩
  | .hbm, ⟨31, _⟩ => ⟨S4096x8, .f32⟩
  | .hbm, ⟨32, _⟩ => ⟨S4096x152, .f32⟩
  | .hbm, ⟨33, _⟩ => ⟨S4096x152, .bf16⟩
  | .hbm, ⟨34, _⟩ => ⟨S1x4096, .f32⟩
  | .hbm, ⟨35, _⟩ => ⟨S1x4096, .f32⟩
  | .hbm, ⟨36, _⟩ => ⟨S1x64, .f32⟩
  | .hbm, ⟨37, _⟩ => ⟨S1x64, .f32⟩
  | .hbm, ⟨38, _⟩ => ⟨S152x4096, .bf16⟩
  | .hbm, ⟨39, _⟩ => ⟨S4096x4096, .bf16⟩
  | .hbm, ⟨40, _⟩ => ⟨S64x64, .f32⟩
  | .hbm, ⟨41, _⟩ => ⟨S4096x64, .f32⟩
  | .hbm, ⟨42, _⟩ => ⟨S4096x64, .f32⟩
  | .hbm, ⟨43, _⟩ => ⟨S8x64, .f32⟩
  | .hbm, ⟨44, _⟩ => ⟨S4096x128, .f32⟩
  | .hbm, ⟨45, _⟩ => ⟨S4096x128, .bf16⟩
  | .hbm, ⟨46, _⟩ => ⟨S4096x4096, .f32⟩
  | .hbm, ⟨47, _⟩ => ⟨S4096x128, .f32⟩
  | .hbm, ⟨48, _⟩ => ⟨S1x4096, .i32⟩
  | .hbm, ⟨49, _⟩ => ⟨S1x4096, .i32⟩
  | .hbm, ⟨50, _⟩ => ⟨S8192x64, .f32⟩
  | .local _ .vmem, ⟨0, _⟩ => ⟨S512x152, .bf16⟩
  | .local _ .vmem, ⟨1, _⟩ => ⟨S512x152, .bf16⟩
  | .local _ .vmem, ⟨2, _⟩ => ⟨S152x256, .bf16⟩
  | .local _ .vmem, ⟨3, _⟩ => ⟨S152x256, .bf16⟩
  | .local _ .vmem, ⟨4, _⟩ => ⟨S1x256, .f32⟩
  | .local _ .vmem, ⟨5, _⟩ => ⟨S1x256, .f32⟩
  | .local _ .vmem, ⟨6, _⟩ => ⟨S256x4096, .bf16⟩
  | .local _ .vmem, ⟨7, _⟩ => ⟨S256x4096, .bf16⟩
  | .local _ .vmem, ⟨8, _⟩ => ⟨S1x4096, .f32⟩
  | .local _ .vmem, ⟨9, _⟩ => ⟨S4096x128, .bf16⟩
  | .local _ .vmem, ⟨10, _⟩ => ⟨S512x4096, .f32⟩
  | .local _ .vmem, ⟨11, _⟩ => ⟨S512x4096, .f32⟩
  | .local _ .vmem, ⟨12, _⟩ => ⟨S512x128, .f32⟩
  | .local _ .vmem, ⟨13, _⟩ => ⟨S512x128, .f32⟩
  | .local _ .vmem, ⟨14, _⟩ => ⟨S512x4096, .f32⟩
  | .local _ .vmem, ⟨15, _⟩ => ⟨S512x64, .f32⟩
  | .local _ .vmem, ⟨16, _⟩ => ⟨S512x64, .f32⟩
  | .local _ .vmem, ⟨17, _⟩ => ⟨S1x4096, .i32⟩
  | .local _ .vmem, ⟨18, _⟩ => ⟨S1x4096, .i32⟩
  | .local _ .vmem, ⟨19, _⟩ => ⟨S4096x128, .f32⟩
  | .local _ .vmem, ⟨20, _⟩ => ⟨S64x64, .f32⟩
  | .local _ .vmem, ⟨21, _⟩ => ⟨S8x64, .f32⟩
  | .local _ .vmem, ⟨22, _⟩ => ⟨S1x8, .f32⟩
  | .local _ .vmem, ⟨23, _⟩ => ⟨S1x64, .f32⟩
  | .local _ .vmem, ⟨24, _⟩ => ⟨S64x64, .f32⟩
  | .local _ .vmem, ⟨25, _⟩ => ⟨S1x64, .f32⟩
  | .local _ .vmem, ⟨26, _⟩ => ⟨S512x64, .f32⟩
  | .local _ .vmem, ⟨27, _⟩ => ⟨S512x64, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c_1 : Ref sig .tc := ⟨.hbm, 22, rfl⟩
abbrev main_v7 : Ref sig .tc := ⟨.hbm, 23, rfl⟩
abbrev main_v8 : Ref sig .tc := ⟨.hbm, 24, rfl⟩
abbrev main_c_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29_0 : Ref sig .tc := ⟨.hbm, 46, rfl⟩
abbrev main_v29_1 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg10_0 : Ref sig .tc := ⟨.vmem, 26, rfl⟩
abbrev cc1_stg10_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem10_0 : DmaSem sig := 25
abbrev cc1_sem10_1 : DmaSem sig := 26

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v23 : BitVec 1 := Scalar.cmpi .eq arg1 c15_i32
  let v24 : BitVec 32 := Scalar.extui v23
  let c0_i32_14 : BitVec 32 := 0#32
  let v25 : BitVec 1 := Scalar.cmpi .ne v24 c0_i32_14
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S152x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4096x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x4096 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x4096 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S4096x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S8x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x8 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S512x64 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S1x8_S4096x8_0_1 : S1x8.BroadcastsInDim S4096x8 (![0, 1] : Fin 2 → Fin S4096x8.rank)
  concatenates_S4096x16_S4096x64_S4096x64_S4096x8_S4096x152_d1 : Shape.Concatenates [S4096x16, S4096x64, S4096x64, S4096x8] S4096x152 1
  bitsLt_bf16_f32 : FTy.bits .bf16 < FTy.bits .f32
  shapeCasts_S4096_S1x4096 : S4096.ShapeCasts S1x4096
  shapeCasts_S64_S1x64 : S64.ShapeCasts S1x64
  slices_S8264x64_S64x64_0_0 : S8264x64.Slices ![0, 0] S64x64
  slices_S8264x64_S4096x64_64_0 : S8264x64.Slices ![64, 0] S4096x64
  slices_S8264x64_S4096x64_4160_0 : S8264x64.Slices ![4160, 0] S4096x64
  slices_S8264x64_S8x64_8256_0 : S8264x64.Slices ![8256, 0] S8x64
  concatenates_S4096x64_S4096x64_S4096x128_d1 : Shape.Concatenates [S4096x64, S4096x64] S4096x128 1
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S512x152_S512x152_0_0 : ∀ a, (![0, 0] : Fin 2 → Nat) a + S512x152.size a ≤ S512x152.size a
  h_S512x152 : 0 < S512x152.numel
  shapeCasts_S512x152_S512x152 : S512x152.ShapeCasts S512x152
  inb_S152x256_S152x256_0_0 : ∀ a, (![0, 0] : Fin 2 → Nat) a + S152x256.size a ≤ S152x256.size a
  h_S152x256 : 0 < S152x256.numel
  shapeCasts_S152x256_S152x256 : S152x256.ShapeCasts S152x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S512x128_S512x128_0_0 : ∀ a, (![0, 0] : Fin 2 → Nat) a + S512x128.size a ≤ S512x128.size a
  h_S512x128 : 0 < S512x128.numel
  iota_S512x1_d0_w32 : S512x1.Iotas .tc 32 [0]
  broadcasts_S512x1_S512x4096 : S512x1.Broadcasts S512x4096
  natLt_1_32 : 1 < 32
  slices_S4096x128_o0_0_S4096x64 : S4096x128.Slices ![0, 0] S4096x64
  slices_S4096x128_o0_64_S4096x64 : S4096x128.Slices ![0, 64] S4096x64
  inb_S512x64_S512x64_0_0 : ∀ a, (![0, 0] : Fin 2 → Nat) a + S512x64.size a ≤ S512x64.size a
  h_S512x64 : 0 < S512x64.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x8_S1x8_0_0 : ∀ a, (![0, 0] : Fin 2 → Nat) a + S1x8.size a ≤ S1x8.size a
  h_S1x8 : 0 < S1x8.numel
  inb_S8x64_S8x64_0_0 : ∀ a, (![0, 0] : Fin 2 → Nat) a + S8x64.size a ≤ S8x64.size a
  h_S8x64 : 0 < S8x64.numel
  shapeCasts_S8x64_S8x64 : S8x64.ShapeCasts S8x64
  broadcasts_S1x64_S512x64 : S1x64.Broadcasts S512x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  gather_S8192x64_S4096x1_S4096x64_1_0_n_n_0_1_164_wf : GatherDims.WF S8192x64 S4096x1 S4096x64 [1] [0] [] [0] [] 1 ![1, 64]
  dot_S512x152_S152x256_S512x256_1_0_0_1_n_n_wf : DotDims.WF S512x152 S152x256 S512x256 [1] [0] [0] [1] [] []
  dot_S512x256_S256x4096_S512x4096_1_0_0_1_n_n_wf : DotDims.WF S512x256 S256x4096 S512x4096 [1] [0] [0] [1] [] []
  dot_S512x4096_S4096x128_S512x128_1_0_0_1_n_n_wf : DotDims.WF S512x4096 S4096x128 S512x128 [1] [0] [0] [1] [] []
  dot_S512x4096_S4096x64_S512x64_1_0_0_1_n_n_wf : DotDims.WF S512x4096 S4096x64 S512x64 [1] [0] [0] [1] [] []
  dot_S512x64_S64x64_S512x64_1_0_0_1_n_n_wf : DotDims.WF S512x64 S64x64 S512x64 [1] [0] [0] [1] [] []
  dot_S1x8_S8x64_S1x64_1_0_0_1_n_n_wf : DotDims.WF S1x8 S8x64 S1x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x152.size a ≤ S4096x152.size a
  hwx0_0 : ∀ i : grid0.Coords, EltTy.bits .bf16 = 32 ∨ (Rect.block (s := S4096x152) S512x152.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S152x256.size a ≤ S152x4096.size a
  hwx0_1 : ∀ i : grid0.Coords, EltTy.bits .bf16 = 32 ∨ (Rect.block (s := S152x4096) S152x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x4096.size a
  hwx0_2 : ∀ i : grid0.Coords, EltTy.bits .f32 = 32 ∨ (Rect.block (s := S1x4096) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S4096x4096.size a
  hwx0_3 : ∀ i : grid0.Coords, EltTy.bits .bf16 = 32 ∨ (Rect.block (s := S4096x4096) S256x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4096x128.size a ≤ S4096x128.size a
  hwx0_5 : ∀ i : grid0.Coords, EltTy.bits .bf16 = 32 ∨ (Rect.block (s := S4096x128) S4096x128.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x4096.size a ≤ S4096x4096.size a
  hwx0_6 : ∀ i : grid0.Coords, EltTy.bits .f32 = 32 ∨ (Rect.block (s := S4096x4096) S512x4096.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x128.size a ≤ S4096x128.size a
  hwx0_7 : ∀ i : grid0.Coords, EltTy.bits .f32 = 32 ∨ (Rect.block (s := S4096x128) S512x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x64.size a ≤ S8192x64.size a
  hwx1_0 : ∀ i : grid1.Coords, EltTy.bits .f32 = 32 ∨ (Rect.block (s := S8192x64) S512x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x4096.size a ≤ S1x4096.size a
  hwx1_1 : ∀ i : grid1.Coords, EltTy.bits .i32 = 32 ∨ (Rect.block (s := S1x4096) S1x4096.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x4096.size a ≤ S1x4096.size a
  hwx1_2 : ∀ i : grid1.Coords, EltTy.bits .i32 = 32 ∨ (Rect.block (s := S1x4096) S1x4096.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4096x128.size a ≤ S4096x128.size a
  hwx1_3 : ∀ i : grid1.Coords, EltTy.bits .f32 = 32 ∨ (Rect.block (s := S4096x128) S4096x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S8x64.size a ≤ S8x64.size a
  hwx1_5 : ∀ i : grid1.Coords, EltTy.bits .f32 = 32 ∨ (Rect.block (s := S8x64) S8x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x8.size a ≤ S1x8.size a
  hwx1_6 : ∀ i : grid1.Coords, EltTy.bits .f32 = 32 ∨ (Rect.block (s := S1x8) S1x8.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64x64.size a ≤ S64x64.size a
  hwx1_8 : ∀ i : grid1.Coords, EltTy.bits .f32 = 32 ∨ (Rect.block (s := S64x64) S64x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x64.size a ≤ S1x64.size a
  hwx1_9 : ∀ i : grid1.Coords, EltTy.bits .f32 = 32 ∨ (Rect.block (s := S1x64) S1x64.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S512x64.size a ≤ S8192x64.size a
  hwx1_10 : ∀ i : grid1.Coords, EltTy.bits .f32 = 32 ∨ (Rect.block (s := S8192x64) S512x64.size (cc1_transform_10 i) (hinb1_10 i)).WholeWords (EltTy.packing .f32)

variable [Facts₀]

def gather_S8192x64_S4096x1_S4096x64_1_0_n_n_0_1_164 : GatherDims S8192x64 S4096x1 S4096x64 where
  offsetDims := [1]
  collapsedSliceDims := [0]
  operandBatchingDims := []
  startIndicesBatchingDims := []
  startIndexMap := [0]
  indexVectorDim := 1
  sliceSizes := ![1, 64]
  wf := gather_S8192x64_S4096x1_S4096x64_1_0_n_n_0_1_164_wf
def dot_S512x152_S152x256_S512x256_1_0_0_1_n_n : DotDims S512x152 S152x256 S512x256 where
  lhsContracting := [1]
  rhsContracting := [0]
  lhsNonContracting := [0]
  rhsNonContracting := [1]
  lhsBatch := []
  rhsBatch := []
  wf := dot_S512x152_S152x256_S512x256_1_0_0_1_n_n_wf
def dot_S512x256_S256x4096_S512x4096_1_0_0_1_n_n : DotDims S512x256 S256x4096 S512x4096 where
  lhsContracting := [1]
  rhsContracting := [0]
  lhsNonContracting := [0]
  rhsNonContracting := [1]
  lhsBatch := []
  rhsBatch := []
  wf := dot_S512x256_S256x4096_S512x4096_1_0_0_1_n_n_wf
def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf
def dot_S512x4096_S4096x64_S512x64_1_0_0_1_n_n : DotDims S512x4096 S4096x64 S512x64 where
  lhsContracting := [1]
  rhsContracting := [0]
  lhsNonContracting := [0]
  rhsNonContracting := [1]
  lhsBatch := []
  rhsBatch := []
  wf := dot_S512x4096_S4096x64_S512x64_1_0_0_1_n_n_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf
def dot_S1x8_S8x64_S1x64_1_0_0_1_n_n : DotDims S1x8 S8x64 S1x64 where
  lhsContracting := [1]
  rhsContracting := [0]
  lhsNonContracting := [0]
  rhsNonContracting := [1]
  lhsBatch := []
  rhsBatch := []
  wf := dot_S1x8_S8x64_S1x64_1_0_0_1_n_n_wf

abbrev win0_0 : Pipeline.Window sig grid0 :=
  Pipeline.Window.ofSpec (Memref.whole main_v16) S512x152.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S152x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22) S256x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S4096x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v29_0) S512x4096.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v29_1) S512x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | ⟨_ + 8, h⟩ => absurd h (Nat.not_lt.2 (Nat.le_add_left _ _))

abbrev win1_0 : Pipeline.Window sig grid1 :=
  Pipeline.Window.ofSpec (Memref.whole main_arg0) S512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S1x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v31) S1x4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29_1) S4096x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v26) S8x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg2) S1x8.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v19) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg11) S64x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v20) S1x64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v32) S512x64.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S8192x64 : Shape := ⟨2, ![8192, 64]⟩
abbrev S4096x16 : Shape := ⟨2, ![4096, 16]⟩
abbrev S1x8 : Shape := ⟨2, ![1, 8]⟩
abbrev S4096 : Shape := ⟨1, ![4096]⟩
abbrev S152x4096 : Shape := ⟨2, ![152, 4096]⟩
abbrev S4096x4096 : Shape := ⟨2, ![4096, 4096]⟩
abbrev S8264x64 : Shape := ⟨2, ![8264, 64]⟩
abbrev S64 : Shape := ⟨1, ![64]⟩
abbrev S64x64 : Shape := ⟨2, ![64, 64]⟩
abbrev S8 : Shape := ⟨1, ![8]⟩
abbrev S4096x8 : Shape := ⟨2, ![4096, 8]⟩
abbrev S_ : Shape := ⟨0, ![]⟩
abbrev S4096x1 : Shape := ⟨2, ![4096, 1]⟩
abbrev S4096x64 : Shape := ⟨2, ![4096, 64]⟩
abbrev S4096x152 : Shape := ⟨2, ![4096, 152]⟩
abbrev S1x4096 : Shape := ⟨2, ![1, 4096]⟩
abbrev S8192x4096 : Shape := ⟨2, ![8192, 4096]⟩
abbrev S8192x8 : Shape := ⟨2, ![8192, 8]⟩
abbrev S8192x8264 : Shape := ⟨2, ![8192, 8264]⟩
abbrev S1x64 : Shape := ⟨2, ![1, 64]⟩

abbrev nBuf : Space → Nat
  | .hbm => 72
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S4096x16, .f32⟩
  | .hbm, ⟨2, _⟩ => ⟨S1x8, .f32⟩
  | .hbm, ⟨3, _⟩ => ⟨S4096, .i32⟩
  | .hbm, ⟨4, _⟩ => ⟨S4096, .i32⟩
  | .hbm, ⟨5, _⟩ => ⟨S152x4096, .f32⟩
  | .hbm, ⟨6, _⟩ => ⟨S4096, .f32⟩
  | .hbm, ⟨7, _⟩ => ⟨S4096x4096, .f32⟩
  | .hbm, ⟨8, _⟩ => ⟨S4096, .f32⟩
  | .hbm, ⟨9, _⟩ => ⟨S8264x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S8, .f32⟩
  | .hbm, ⟨14, _⟩ => ⟨S4096x8, .f32⟩
  | .hbm, ⟨15, _⟩ => ⟨S_, .i32⟩
  | .hbm, ⟨16, _⟩ => ⟨S4096, .i32⟩
  | .hbm, ⟨17, _⟩ => ⟨S4096, .i1⟩
  | .hbm, ⟨18, _⟩ => ⟨S_, .i32⟩
  | .hbm, ⟨19, _⟩ => ⟨S4096, .i32⟩
  | .hbm, ⟨20, _⟩ => ⟨S4096, .i32⟩
  | .hbm, ⟨21, _⟩ => ⟨S4096, .i32⟩
  | .hbm, ⟨22, _⟩ => ⟨S4096x1, .i32⟩
  | .hbm, ⟨23, _⟩ => ⟨S4096x64, .f32⟩
  | .hbm, ⟨24, _⟩ => ⟨S_, .i32⟩
  | .hbm, ⟨25, _⟩ => ⟨S4096, .i32⟩
  | .hbm, ⟨26, _⟩ => ⟨S4096, .i1⟩
  | .hbm, ⟨27, _⟩ => ⟨S_, .i32⟩
  | .hbm, ⟨28, _⟩ => ⟨S4096, .i32⟩
  | .hbm, ⟨29, _⟩ => ⟨S4096, .i32⟩
  | .hbm, ⟨30, _⟩ => ⟨S4096, .i32⟩
  | .hbm, ⟨31, _⟩ => ⟨S4096x1, .i32⟩
  | .hbm, ⟨32, _⟩ => ⟨S4096x64, .f32⟩
  | .hbm, ⟨33, _⟩ => ⟨S4096x152, .f32⟩
  | .hbm, ⟨34, _⟩ => ⟨S4096x4096, .f32⟩
  | .hbm, ⟨35, _⟩ => ⟨S1x4096, .f32⟩
  | .hbm, ⟨36, _⟩ => ⟨S4096x4096, .f32⟩
  | .hbm, ⟨37, _⟩ => ⟨S4096x4096, .f32⟩
  | .hbm, ⟨38, _⟩ => ⟨S_, .f32⟩
  | .hbm, ⟨39, _⟩ => ⟨S4096x4096, .f32⟩
  | .hbm, ⟨40, _⟩ => ⟨S4096x4096, .f32⟩
  | .hbm, ⟨41, _⟩ => ⟨S4096x4096, .f32⟩
  | .hbm, ⟨42, _⟩ => ⟨S1x4096, .f32⟩
  | .hbm, ⟨43, _⟩ => ⟨S4096x4096, .f32⟩
  | .hbm, ⟨44, _⟩ => ⟨S4096x4096, .f32⟩
  | .hbm, ⟨45, _⟩ => ⟨S_, .f32⟩
  | .hbm, ⟨46, _⟩ => ⟨S4096x4096, .f32⟩
  | .hbm, ⟨47, _⟩ => ⟨S4096x4096, .f32⟩
  | .hbm, ⟨48, _⟩ => ⟨S_, .f32⟩
  | .hbm, ⟨49, _⟩ => ⟨S8192x4096, .f32⟩
  | .hbm, ⟨50, _⟩ => ⟨S4096x1, .i32⟩
  | .hbm, ⟨51, _⟩ => ⟨S8192x4096, .f32⟩
  | .hbm, ⟨52, _⟩ => ⟨S_, .f32⟩
  | .hbm, ⟨53, _⟩ => ⟨S8192x4096, .f32⟩
  | .hbm, ⟨54, _⟩ => ⟨S4096x1, .i32⟩
  | .hbm, ⟨55, _⟩ => ⟨S8192x4096, .f32⟩
  | .hbm, ⟨56, _⟩ => ⟨S8192x8, .f32⟩
  | .hbm, ⟨57, _⟩ => ⟨S8192x8264, .f32⟩
  | .hbm, ⟨58, _⟩ => ⟨S8192x64, .f32⟩
  | .hbm, ⟨59, _⟩ => ⟨S1x64, .f32⟩
  | .hbm, ⟨60, _⟩ => ⟨S8192x64, .f32⟩
  | .hbm, ⟨61, _⟩ => ⟨S8192x64, .f32⟩
  | .hbm, ⟨62, _⟩ => ⟨S_, .f32⟩
  | .hbm, ⟨63, _⟩ => ⟨S8192x64, .f32⟩
  | .hbm, ⟨64, _⟩ => ⟨S8192x64, .f32⟩
  | .hbm, ⟨65, _⟩ => ⟨S8192x64, .f32⟩
  | .hbm, ⟨66, _⟩ => ⟨S1x64, .f32⟩
  | .hbm, ⟨67, _⟩ => ⟨S8192x64, .f32⟩
  | .hbm, ⟨68, _⟩ => ⟨S8192x64, .f32⟩
  | .hbm, ⟨69, _⟩ => ⟨S_, .f32⟩
  | .hbm, ⟨70, _⟩ => ⟨S8192x64, .f32⟩
  | .hbm, ⟨71, _⟩ => ⟨S8192x64, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_c_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_c_1 : Ref sig .tc := ⟨.hbm, 24, rfl⟩
abbrev main_v9 : Ref sig .tc := ⟨.hbm, 25, rfl⟩
abbrev main_v10 : Ref sig .tc := ⟨.hbm, 26, rfl⟩
abbrev main_c_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_call0_cst : Ref sig .tc := ⟨.hbm, 38, rfl⟩
abbrev main_call0_v0 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_call1_cst : Ref sig .tc := ⟨.hbm, 45, rfl⟩
abbrev main_call1_v0 : Ref sig .tc := ⟨.hbm, 46, rfl⟩
abbrev main_v26 : Ref sig .tc := ⟨.hbm, 47, rfl⟩
abbrev main_cst : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_3 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_call2_cst : Ref sig .tc := ⟨.hbm, 62, rfl⟩
abbrev main_call2_v0 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_call3_cst : Ref sig .tc := ⟨.hbm, 69, rfl⟩
abbrev main_call3_v0 : Ref sig .tc := ⟨.hbm, 70, rfl⟩
abbrev main_v44 : Ref sig .tc := ⟨.hbm, 71, rfl⟩

abbrev nD : Nat := 1
abbrev τ : Topo := Topo.v7x

variable {F : FTy → Type} [FloatOps F]

class Facts₀ : Prop where
  shapeCasts_S1x8_S8 : S1x8.ShapeCasts S8
  bcast_S8_S4096x8_1 : S8.BroadcastsInDim S4096x8 (![1] : Fin 1 → Fin S4096x8.rank)
  bcast_S_S4096 : S_.BroadcastsInDim S4096 (![] : Fin 0 → Fin S4096.rank)
  bcast_S4096_S4096x1_0 : S4096.BroadcastsInDim S4096x1 (![0] : Fin 1 → Fin S4096x1.rank)
  concatenates_S4096x16_S4096x64_S4096x64_S4096x8_S4096x152_d1 : Shape.Concatenates [S4096x16, S4096x64, S4096x64, S4096x8] S4096x152 1
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  bcast_S_S8192x4096 : S_.BroadcastsInDim S8192x4096 (![] : Fin 0 → Fin S8192x4096.rank)
  bcast_S8_S8192x8_1 : S8.BroadcastsInDim S8192x8 (![1] : Fin 1 → Fin S8192x8.rank)
  concatenates_S8192x64_S8192x4096_S8192x4096_S8192x8_S8192x8264_d1 : Shape.Concatenates [S8192x64, S8192x4096, S8192x4096, S8192x8] S8192x8264 1
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  gather_S8192x64_S4096x1_S4096x64_1_0_n_n_0_1_164_wf : GatherDims.WF S8192x64 S4096x1 S4096x64 [1] [0] [] [0] [] 1 ![1, 64]
  dot_S4096x152_S152x4096_S4096x4096_1_0_0_1_n_n_wf : DotDims.WF S4096x152 S152x4096 S4096x4096 [1] [0] [0] [1] [] []
  dot_S4096x4096_S4096x4096_S4096x4096_1_0_0_1_n_n_wf : DotDims.WF S4096x4096 S4096x4096 S4096x4096 [1] [0] [0] [1] [] []
  scatter_S8192x4096_S4096x1_S4096x4096_1_0_0_1_wf : ScatterDims.WF S8192x4096 S4096x1 S4096x4096 [1] [0] [0] 1
  dot_S8192x8264_S8264x64_S8192x64_1_0_0_1_n_n_wf : DotDims.WF S8192x8264 S8264x64 S8192x64 [1] [0] [0] [1] [] []
  dot_S8192x64_S64x64_S8192x64_1_0_0_1_n_n_wf : DotDims.WF S8192x64 S64x64 S8192x64 [1] [0] [0] [1] [] []

variable [Facts₀]

def gather_S8192x64_S4096x1_S4096x64_1_0_n_n_0_1_164 : GatherDims S8192x64 S4096x1 S4096x64 where
  offsetDims := [1]
  collapsedSliceDims := [0]
  operandBatchingDims := []
  startIndicesBatchingDims := []
  startIndexMap := [0]
  indexVectorDim := 1
  sliceSizes := ![1, 64]
  wf := gather_S8192x64_S4096x1_S4096x64_1_0_n_n_0_1_164_wf
def dot_S4096x152_S152x4096_S4096x4096_1_0_0_1_n_n : DotDims S4096x152 S152x4096 S4096x4096 where
  lhsContracting := [1]
  rhsContracting := [0]
  lhsNonContracting := [0]
  rhsNonContracting := [1]
  lhsBatch := []
  rhsBatch := []
  wf := dot_S4096x152_S152x4096_S4096x4096_1_0_0_1_n_n_wf
def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf
def scatter_S8192x4096_S4096x1_S4096x4096_1_0_0_1 : ScatterDims S8192x4096 S4096x1 S4096x4096 where
  updateWindowDims := [1]
  insertedWindowDims := [0]
  scatterDimsToOperandDims := [0]
  indexVectorDim := 1
  wf := scatter_S8192x4096_S4096x1_S4096x4096_1_0_0_1_wf
def dot_S8192x8264_S8264x64_S8192x64_1_0_0_1_n_n : DotDims S8192x8264 S8264x64 S8192x64 where
  lhsContracting := [1]
  rhsContracting := [0]
  lhsNonContracting := [0]
  rhsNonContracting := [1]
  lhsBatch := []
  rhsBatch := []
  wf := dot_S8192x8264_S8264x64_S8192x64_1_0_0_1_n_n_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf

class Facts : Prop extends Facts₀ where

variable [Facts]
-- ==== Proof.Kernel.R0Runs.lean ====
import proofs.«430600_j30915174596644_3_alg».proof.Proof.Gen.Kernel.Launch
import proofs.«430600_j30915174596644_3_alg».proof.Proof.Gen.Kernel.Skeleton
import proofs.«430600_j30915174596644_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

section
variable {c : Dev nD} (dat : Dat τ (Elt F) Unit ℕ (UR sig nD τ) ℕ cfg0 c)

theorem blockOf0 (w : Fin cfg0.W) (hA : dat.A w = V c (Pipeline.arrRef spec0 w)) (t : Fin cfg0.N) : dat.blockOf w t = iblk0 V c w t := by
  unfold Dat.blockOf iblk0; rw [hA]

theorem before0_0_of (hA : dat.A 0 = V c (Pipeline.arrRef spec0 0)) (hafter : ∀ t, dat.after 0 t = iblk0 V c 0 t) (t : Fin cfg0.N) (d) :
    dat.before 0 t d = iblk0 V c 0 t :=
  (dat.before_in_eq_fetched 0 rfl (fun _ => rfl) (fun _ _ _ => rfl) (fun t => (hafter t).trans (blockOf0 V dat 0 hA t).symm) t d).trans (blockOf0 V dat 0 hA t)
theorem before0_1_of (hA : dat.A 1 = V c (Pipeline.arrRef spec0 1)) (hafter : ∀ t, dat.after 1 t = iblk0 V c 1 t) (t : Fin cfg0.N) (d) :
    dat.before 1 t d = iblk0 V c 1 t :=
  (dat.before_in_eq_fetched 1 rfl (fun _ => rfl) (fun _ _ _ => rfl) (fun t => (hafter t).trans (blockOf0 V dat 1 hA t).symm) t d).trans (blockOf0 V dat 1 hA t)
theorem before0_2_of (hA : dat.A 2 = V c (Pipeline.arrRef spec0 2)) (hafter : ∀ t, dat.after 2 t = iblk0 V c 2 t) (t : Fin cfg0.N) (d) :
    dat.before 2 t d = iblk0 V c 2 t :=
  (dat.before_in_eq_fetched 2 rfl (fun _ => rfl) (fun _ _ _ => rfl) (fun t => (hafter t).trans (blockOf0 V dat 2 hA t).symm) t d).trans (blockOf0 V dat 2 hA t)
theorem before0_3_of (hA : dat.A 3 = V c (Pipeline.arrRef spec0 3)) (hafter : ∀ t, dat.after 3 t = iblk0 V c 3 t) (t : Fin cfg0.N) (d) :
    dat.before 3 t d = iblk0 V c 3 t :=
  (dat.before_in_eq_fetched 3 rfl (fun _ => rfl) (fun _ _ _ => rfl) (fun t => (hafter t).trans (blockOf0 V dat 3 hA t).symm) t d).trans (blockOf0 V dat 3 hA t)
theorem before0_4_of (hA : dat.A 4 = V c (Pipeline.arrRef spec0 4)) (hafter : ∀ t, dat.after 4 t = iblk0 V c 4 t) (t : Fin cfg0.N) (d) :
    dat.before 4 t d = iblk0 V c 4 t :=
  (dat.before_in_eq_fetched 4 rfl (fun _ => rfl) (fun _ _ _ => rfl) (fun t => (hafter t).trans (blockOf0 V dat 4 hA t).symm) t d).trans (blockOf0 V dat 4 hA t)
theorem before0_5_of (hA : dat.A 5 = V c (Pipeline.arrRef spec0 5)) (hafter : ∀ t, dat.after 5 t = iblk0 V c 5 t) (t : Fin cfg0.N) (d) :
    dat.before 5 t d = iblk0 V c 5 t :=
  (dat.before_in_eq_fetched 5 rfl (fun _ => rfl) (fun _ _ _ => rfl) (fun t => (hafter t).trans (blockOf0 V dat 5 hA t).symm) t d).trans (blockOf0 V dat 5 hA t)
end

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 := by decide +kernel
abbrev cond0_1 (i : grid0.Coords) : Prop := k0_cond2 i = 1#1
theorem hcond0_1 : ∀ t : Fin cfg0.N, cond0_1 (grid0.coords t) ↔ t.val % 16 = 15 := by decide +kernel
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem idleAt0_6_A : ∀ t : Fin cfg0.N, cond0_0 (grid0.coords t) → ¬cond0_1 (grid0.coords t) → cfg0.idle 6 (grid0.coords t) = true := by decide +kernel
theorem noFlush0_6_A : ∀ t : Fin cfg0.N, cond0_0 (grid0.coords t) → ¬cond0_1 (grid0.coords t) → (cfg0.win 6).flush t = false := by decide +kernel
theorem idleAt0_6_B : ∀ t : Fin cfg0.N, ¬cond0_0 (grid0.coords t) → ¬cond0_1 (grid0.coords t) → cfg0.idle 6 (grid0.coords t) = true := by decide +kernel
theorem noFlush0_6_B : ∀ t : Fin cfg0.N, ¬cond0_0 (grid0.coords t) → ¬cond0_1 (grid0.coords t) → (cfg0.win 6).flush t = false := by decide +kernel
theorem liveAt0_6_C : ∀ t : Fin cfg0.N, ¬cond0_0 (grid0.coords t) → cond0_1 (grid0.coords t) → cfg0.idle 6 (grid0.coords t) = false := by decide +kernel
theorem idleAt0_7_A : ∀ t : Fin cfg0.N, cond0_0 (grid0.coords t) → ¬cond0_1 (grid0.coords t) → cfg0.idle 7 (grid0.coords t) = true := by decide +kernel
theorem noFlush0_7_A : ∀ t : Fin cfg0.N, cond0_0 (grid0.coords t) → ¬cond0_1 (grid0.coords t) → (cfg0.win 7).flush t = false := by decide +kernel
theorem idleAt0_7_B : ∀ t : Fin cfg0.N, ¬cond0_0 (grid0.coords t) → ¬cond0_1 (grid0.coords t) → cfg0.idle 7 (grid0.coords t) = true := by decide +kernel
theorem noFlush0_7_B : ∀ t : Fin cfg0.N, ¬cond0_0 (grid0.coords t) → ¬cond0_1 (grid0.coords t) → (cfg0.win 7).flush t = false := by decide +kernel
theorem liveAt0_7_C : ∀ t : Fin cfg0.N, ¬cond0_0 (grid0.coords t) → cond0_1 (grid0.coords t) → cfg0.idle 7 (grid0.coords t) = false := by decide +kernel

abbrev VO0_6 : View sig .tc .vmem S512x4096 .f32 := (Memref.whole cc0_stg6_0 : Memref sig .tc .vmem S512x4096 .f32).view
abbrev VO0_7 : View sig .tc .vmem S512x128 .f32 := (Memref.whole cc0_stg7_0 : Memref sig .tc .vmem S512x128 .f32).view
section
variable (t : Fin cfg0.N)
abbrev ms0_0 : Memref sig .tc .vmem S512x152 .bf16 := win0_0.stage (cfg0.slots t 0)
abbrev hs0_0 : (ms0_0 t).IsWhole := hstage0_0 ((cfg0.slots t 0).cast nbuf0_0)
abbrev ms0_1 : Memref sig .tc .vmem S152x256 .bf16 := win0_1.stage (cfg0.slots t 1)
abbrev hs0_1 : (ms0_1 t).IsWhole := hstage0_1 ((cfg0.slots t 1).cast nbuf0_1)
abbrev ms0_2 : Memref sig .tc .vmem S1x256 .f32 := win0_2.stage (cfg0.slots t 2)
abbrev hs0_2 : (ms0_2 t).IsWhole := hstage0_2 ((cfg0.slots t 2).cast nbuf0_2)
abbrev ms0_3 : Memref sig .tc .vmem S256x4096 .bf16 := win0_3.stage (cfg0.slots t 3)
abbrev hs0_3 : (ms0_3 t).IsWhole := hstage0_3 ((cfg0.slots t 3).cast nbuf0_3)
abbrev ms0_4 : Memref sig .tc .vmem S1x4096 .f32 := win0_4.stage (cfg0.slots t 4)
abbrev hs0_4 : (ms0_4 t).IsWhole := hstage0_4 ((cfg0.slots t 4).cast nbuf0_4)
abbrev ms0_5 : Memref sig .tc .vmem S4096x128 .bf16 := win0_5.stage (cfg0.slots t 5)
abbrev hs0_5 : (ms0_5 t).IsWhole := hstage0_5 ((cfg0.slots t 5).cast nbuf0_5)
abbrev ms0_6 : Memref sig .tc .vmem S512x4096 .f32 := win0_6.stage (cfg0.slots t 6)
abbrev hs0_6 : (ms0_6 t).IsWhole := hstage0_6 ((cfg0.slots t 6).cast nbuf0_6)
abbrev ms0_7 : Memref sig .tc .vmem S512x128 .f32 := win0_7.stage (cfg0.slots t 7)
abbrev hs0_7 : (ms0_7 t).IsWhole := hstage0_7 ((cfg0.slots t 7).cast nbuf0_7)
end
abbrev scM0_0 : Memref sig .tc .vmem S512x4096 .f32 := Memref.whole cc0_scratch0
abbrev VS0_0 : View sig .tc .vmem S512x4096 .f32 := scM0_0.view

def restS0 (c : Dev nD) : sProp 𝕄 :=
  bigSepL [cc1_stg0_0, cc1_stg0_1, cc1_stg1_0, cc1_stg2_0, cc1_stg3_0, cc1_stg4_0, cc1_stg5_0, cc1_stg6_0, cc1_stg7_0, cc1_stg8_0, cc1_stg9_0, cc1_stg10_0, cc1_stg10_1]
    fun b => iprop(∃ f : Buf (Elt F) ((c : Thread nD τ).loc b), ((c : Thread nD τ).loc b) ↦{fullShare} f)

theorem PhiA0_eq (c : Dev nD) :
    (Pipeline.ΦA spec0 c : sProp 𝕄)
      = iprop(iprop((∃ d, owns c scM0_0 fullShare d) ∗ restS0 (F := F) c) ∗ (∃ r, prngReg c r)) := by
  unfold Pipeline.ΦA restS0; rw [scopedRest0_eq]; simp only [scM0_0, owns_whole]; rfl

theorem owns_unread (c : Dev nD) {sp : Space} {s : Shape} {e : EltTy} {m : Memref sig .tc sp s e} (h : m.IsWhole) (q : PosShare TreeShare)
    (X : s.Idx → Elt F e) : (owns c m q X : sProp 𝕄) = (m.view.loc c ↦[m.view.set]{q} h.unread X) := by
  unfold owns
  refine BI.equiv_iff.mp ⟨show _ ⊢ (_ : sProp 𝕄) from ?_, show _ ⊢ (_ : sProp 𝕄) from ?_⟩
  · iintro ⟨%f, %hf, H⟩; obtain rfl := h.eq_unread hf; iexact H
  · iintro H; iexists _; isplitr; · ipureintro; exact h.read_unread _
    iexact H

end Cert.Kernel.Hand

end
-- ==== Proof.Kernel.R0RunA.lean ====
import proofs.«430600_j30915174596644_3_alg».proof.Proof.Kernel.R0Runs
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄" => MT nD τ sig Unit (Elt F) ℕ (UR sig nD τ) ℕ

noncomputable def kernelRun0_A (c : Dev nD) (i : grid0.Coords) (arg2 : Memref sig .tc .vmem S512x152 .bf16) (harg2 : arg2.IsWhole) (arg3 : Memref sig .tc .vmem S152x256 .bf16) (harg3 : arg3.IsWhole) (arg4 : Memref sig .tc .vmem S1x256 .f32) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S4096x128 .bf16) (harg7 : arg7.IsWhole) (arg8 : Memref sig .tc .vmem S512x4096 .f32) (harg8 : arg8.IsWhole) (arg9 : Memref sig .tc .vmem S512x128 .f32) (harg9 : arg9.IsWhole) (arg10 : Memref sig .tc .vmem S512x4096 .f32) (harg10 : arg10.IsWhole) (hc0 : cond0_0 i) (hc1 : ¬cond0_1 i)
    (x0 : Vec F S512x152 .bf16) (x1 : Vec F S152x256 .bf16) (x2 : Vec F S1x256 .f32) (x3 : Vec F S256x4096 .bf16) (x4 : Vec F S1x4096 .f32) (x5 : Vec F S4096x128 .bf16) :
    Σ' (L6 : List (View.Piece (Elt F) S512x4096 .f32)), Σ' (L7 : List (View.Piece (Elt F) S512x128 .f32)), { LS0 : List (View.Piece (Elt F) S512x4096 .f32) //
      ∀ (xi6 : Vec F S512x4096 .f32) (xi7 : Vec F S512x128 .f32) (E : Set ℕ) (K : PUnit → sProp 𝕄),
        iprop(owns c arg2 fullShare x0 ∗ owns c arg3 fullShare x1 ∗ owns c arg4 fullShare x2 ∗ owns c arg5 fullShare x3 ∗ owns c arg6 fullShare x4 ∗ owns c arg7 fullShare x5 ∗ owns c arg8 fullShare xi6 ∗ owns c arg9 fullShare xi7 ∗ (∃ d, owns c arg10 fullShare d)
            ∗ (iprop(owns c arg2 fullShare x0 ∗ owns c arg3 fullShare x1 ∗ owns c arg4 fullShare x2 ∗ owns c arg5 fullShare x3 ∗ owns c arg6 fullShare x4 ∗ owns c arg7 fullShare x5 ∗ owns c arg8 fullShare xi6 ∗ owns c arg9 fullShare xi7 ∗ (∃ f, arg10.view.loc c ↦[arg10.view.set]{fullShare} arg10.view.writes (Elt F) f LS0)) -∗ K ⟨⟩))
          ⊢ wp frame (wpE (defs₀ (F := F)) Variants.none c none) E (cc0__edge_fused_kernel i arg2 harg2 arg3 harg3 arg4 harg4 arg5 harg5 arg6 harg6 arg7 harg7 arg8 harg8 arg9 harg9 arg10 harg10) K } := by
  refine ⟨[], [], ?_, fun xi6 xi7 E K => ?run⟩
  case run =>
    simp only [cc0__edge_fused_kernel_eq_skeleton, owns_unread c harg2, owns_unread c harg3, owns_unread c harg4, owns_unread c harg5, owns_unread c harg6, owns_unread c harg7, owns_unread c harg8, owns_unread c harg9, owns_unread c harg10]
    unfold cc0__edge_fused_kernel_skel
    iintro ⟨H0, H1, H2, H3, H4, H5, H6, H7, ⟨%ds0, HS0⟩, Hk⟩
    sl_exec (disch := first | exact hc0 | exact hc1)
    sl_step
    iapply Hk
    iframe H0 H1 H2 H3 H4 H5 H6 H7
    iexists _; iexact HS0

end Cert.Kernel.Hand

end
-- ==== Proof.Kernel.R0RunB.lean ====
import proofs.«430600_j30915174596644_3_alg».proof.Proof.Kernel.R0RunA
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄" => MT nD τ sig Unit (Elt F) ℕ (UR sig nD τ) ℕ

noncomputable def kernelRun0_B (c : Dev nD) (i : grid0.Coords) (arg2 : Memref sig .tc .vmem S512x152 .bf16) (harg2 : arg2.IsWhole) (arg3 : Memref sig .tc .vmem S152x256 .bf16) (harg3 : arg3.IsWhole) (arg4 : Memref sig .tc .vmem S1x256 .f32) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S4096x128 .bf16) (harg7 : arg7.IsWhole) (arg8 : Memref sig .tc .vmem S512x4096 .f32) (harg8 : arg8.IsWhole) (arg9 : Memref sig .tc .vmem S512x128 .f32) (harg9 : arg9.IsWhole) (arg10 : Memref sig .tc .vmem S512x4096 .f32) (harg10 : arg10.IsWhole) (hc0 : ¬cond0_0 i) (hc1 : ¬cond0_1 i)
    (x0 : Vec F S512x152 .bf16) (x1 : Vec F S152x256 .bf16) (x2 : Vec F S1x256 .f32) (x3 : Vec F S256x4096 .bf16) (x4 : Vec F S1x4096 .f32) (x5 : Vec F S4096x128 .bf16) (xs0 : Vec F S512x4096 .f32) :
    Σ' (L6 : List (View.Piece (Elt F) S512x4096 .f32)), Σ' (L7 : List (View.Piece (Elt F) S512x128 .f32)), { LS0 : List (View.Piece (Elt F) S512x4096 .f32) //
      ∀ (xi6 : Vec F S512x4096 .f32) (xi7 : Vec F S512x128 .f32) (E : Set ℕ) (K : PUnit → sProp 𝕄),
        iprop(owns c arg2 fullShare x0 ∗ owns c arg3 fullShare x1 ∗ owns c arg4 fullShare x2 ∗ owns c arg5 fullShare x3 ∗ owns c arg6 fullShare x4 ∗ owns c arg7 fullShare x5 ∗ owns c arg8 fullShare xi6 ∗ owns c arg9 fullShare xi7 ∗ owns c arg10 fullShare xs0
            ∗ (iprop(owns c arg2 fullShare x0 ∗ owns c arg3 fullShare x1 ∗ owns c arg4 fullShare x2 ∗ owns c arg5 fullShare x3 ∗ owns c arg6 fullShare x4 ∗ owns c arg7 fullShare x5 ∗ owns c arg8 fullShare xi6 ∗ owns c arg9 fullShare xi7 ∗ (∃ f, arg10.view.loc c ↦[arg10.view.set]{fullShare} arg10.view.writes (Elt F) f LS0)) -∗ K ⟨⟩))
          ⊢ wp frame (wpE (defs₀ (F := F)) Variants.none c none) E (cc0__edge_fused_kernel i arg2 harg2 arg3 harg3 arg4 harg4 arg5 harg5 arg6 harg6 arg7 harg7 arg8 harg8 arg9 harg9 arg10 harg10) K } := by
  refine ⟨[], [], ?_, fun xi6 xi7 E K => ?run⟩
  case run =>
    simp only [cc0__edge_fused_kernel_eq_skeleton, owns_unread c harg2, owns_unread c harg3, owns_unread c harg4, owns_unread c harg5, owns_unread c harg6, owns_unread c harg7, owns_unread c harg8, owns_unread c harg9, owns_unread c harg10]
    unfold cc0__edge_fused_kernel_skel
    iintro ⟨H0, H1, H2, H3, H4, H5, H6, H7, HS0, Hk⟩
    sl_exec (disch := first | exact hc0 | exact hc1)
    sl_step
    iapply Hk
    iframe H0 H1 H2 H3 H4 H5 H6 H7
    iexists _; iexact HS0

end Cert.Kernel.Hand

end
-- ==== Proof.Kernel.R0RunC.lean ====
import proofs.«430600_j30915174596644_3_alg».proof.Proof.Kernel.R0RunB
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄" => MT nD τ sig Unit (Elt F) ℕ (UR sig nD τ) ℕ

noncomputable def kernelRun0_C (c : Dev nD) (i : grid0.Coords) (arg2 : Memref sig .tc .vmem S512x152 .bf16) (harg2 : arg2.IsWhole) (arg3 : Memref sig .tc .vmem S152x256 .bf16) (harg3 : arg3.IsWhole) (arg4 : Memref sig .tc .vmem S1x256 .f32) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S4096x128 .bf16) (harg7 : arg7.IsWhole) (arg8 : Memref sig .tc .vmem S512x4096 .f32) (harg8 : arg8.IsWhole) (arg9 : Memref sig .tc .vmem S512x128 .f32) (harg9 : arg9.IsWhole) (arg10 : Memref sig .tc .vmem S512x4096 .f32) (harg10 : arg10.IsWhole) (hc0 : ¬cond0_0 i) (hc1 : cond0_1 i)
    (x0 : Vec F S512x152 .bf16) (x1 : Vec F S152x256 .bf16) (x2 : Vec F S1x256 .f32) (x3 : Vec F S256x4096 .bf16) (x4 : Vec F S1x4096 .f32) (x5 : Vec F S4096x128 .bf16) (xs0 : Vec F S512x4096 .f32) :
    Σ' (L6 : List (View.Piece (Elt F) S512x4096 .f32)), Σ' (L7 : List (View.Piece (Elt F) S512x128 .f32)), { LS0 : List (View.Piece (Elt F) S512x4096 .f32) //
      ∀ (E : Set ℕ) (K : PUnit → sProp 𝕄),
        iprop(owns c arg2 fullShare x0 ∗ owns c arg3 fullShare x1 ∗ owns c arg4 fullShare x2 ∗ owns c arg5 fullShare x3 ∗ owns c arg6 fullShare x4 ∗ owns c arg7 fullShare x5 ∗ (∃ d, owns c arg8 fullShare d) ∗ (∃ d, owns c arg9 fullShare d) ∗ owns c arg10 fullShare xs0
            ∗ (iprop(owns c arg2 fullShare x0 ∗ owns c arg3 fullShare x1 ∗ owns c arg4 fullShare x2 ∗ owns c arg5 fullShare x3 ∗ owns c arg6 fullShare x4 ∗ owns c arg7 fullShare x5 ∗ (∃ f, arg8.view.loc c ↦[arg8.view.set]{fullShare} arg8.view.writes (Elt F) f L6) ∗ (∃ f, arg9.view.loc c ↦[arg9.view.set]{fullShare} arg9.view.writes (Elt F) f L7) ∗ (∃ f, arg10.view.loc c ↦[arg10.view.set]{fullShare} arg10.view.writes (Elt F) f LS0)) -∗ K ⟨⟩))
          ⊢ wp frame (wpE (defs₀ (F := F)) Variants.none c none) E (cc0__edge_fused_kernel i arg2 harg2 arg3 harg3 arg4 harg4 arg5 harg5 arg6 harg6 arg7 harg7 arg8 harg8 arg9 harg9 arg10 harg10) K } := by
  refine ⟨?_, ?_, ?_, fun E K => ?run⟩
  case run =>
    simp only [cc0__edge_fused_kernel_eq_skeleton, owns_unread c harg2, owns_unread c harg3, owns_unread c harg4, owns_unread c harg5, owns_unread c harg6, owns_unread c harg7, owns_unread c harg8, owns_unread c harg9, owns_unread c harg10]
    unfold cc0__edge_fused_kernel_skel
    iintro ⟨H0, H1, H2, H3, H4, H5, ⟨%d6, H6⟩, ⟨%d7, H7⟩, HS0, Hk⟩
    sl_exec (disch := first | exact hc0 | exact hc1)
    sl_step
    iapply Hk
    iframe H0 H1 H2 H3 H4 H5
    isplitl [H6]; · iexists _; iexact H6
    isplitl [H7]; · iexists _; iexact H7
    iexists _; iexact HS0

end Cert.Kernel.Hand

end
-- ==== Proof.Kernel.R0Frame.lean ====
import proofs.«430600_j30915174596644_3_alg».proof.Proof.Kernel.R0RunC
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

section
variable (c : Dev nD) (i : grid0.Coords) (arg2 : Memref sig .tc .vmem S512x152 .bf16) (harg2 : arg2.IsWhole) (arg3 : Memref sig .tc .vmem S152x256 .bf16) (harg3 : arg3.IsWhole) (arg4 : Memref sig .tc .vmem S1x256 .f32) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S4096x128 .bf16) (harg7 : arg7.IsWhole) (arg8 : Memref sig .tc .vmem S512x4096 .f32) (harg8 : arg8.IsWhole) (arg9 : Memref sig .tc .vmem S512x128 .f32) (harg9 : arg9.IsWhole) (arg10 : Memref sig .tc .vmem S512x4096 .f32) (harg10 : arg10.IsWhole)

section
variable (hc0 : cond0_0 i) (hc1 : ¬cond0_1 i) (x0 : Vec F S512x152 .bf16) (x1 : Vec F S152x256 .bf16) (x2 : Vec F S1x256 .f32) (x3 : Vec F S256x4096 .bf16) (x4 : Vec F S1x4096 .f32) (x5 : Vec F S4096x128 .bf16)
def out0_A_6 : Vec F S512x4096 .f32 := VO0_6.read (Elt F) (VO0_6.writes (Elt F) VO0_6.junk (kernelRun0_A c i arg2 harg2 arg3 harg3 arg4 harg4 arg5 harg5 arg6 harg6 arg7 harg7 arg8 harg8 arg9 harg9 arg10 harg10 hc0 hc1 x0 x1 x2 x3 x4 x5).1)
def out0_A_7 : Vec F S512x128 .f32 := VO0_7.read (Elt F) (VO0_7.writes (Elt F) VO0_7.junk (kernelRun0_A c i arg2 harg2 arg3 harg3 arg4 harg4 arg5 harg5 arg6 harg6 arg7 harg7 arg8 harg8 arg9 harg9 arg10 harg10 hc0 hc1 x0 x1 x2 x3 x4 x5).2.1)
def sout0_A_0 : Vec F S512x4096 .f32 := VS0_0.read (Elt F) (VS0_0.writes (Elt F) VS0_0.junk (kernelRun0_A c i arg2 harg2 arg3 harg3 arg4 harg4 arg5 harg5 arg6 harg6 arg7 harg7 arg8 harg8 arg9 harg9 arg10 harg10 hc0 hc1 x0 x1 x2 x3 x4 x5).2.2.1)
def trip0_A : Vec F S512x4096 .f32 × Vec F S512x128 .f32 × Vec F S512x4096 .f32 := (out0_A_6 c i arg2 harg2 arg3 harg3 arg4 harg4 arg5 harg5 arg6 harg6 arg7 harg7 arg8 harg8 arg9 harg9 arg10 harg10 hc0 hc1 x0 x1 x2 x3 x4 x5, out0_A_7 c i arg2 harg2 arg3 harg3 arg4 harg4 arg5 harg5 arg6 harg6 arg7 harg7 arg8 harg8 arg9 harg9 arg10 harg10 hc0 hc1 x0 x1 x2 x3 x4 x5, sout0_A_0 c i arg2 harg2 arg3 harg3 arg4 harg4 arg5 harg5 arg6 harg6 arg7 harg7 arg8 harg8 arg9 harg9 arg10 harg10 hc0 hc1 x0 x1 x2 x3 x4 x5)
theorem scover0_A_0 (y : S512x4096.Idx) : ∃ pc ∈ (kernelRun0_A c i arg2 harg2 arg3 harg3 arg4 harg4 arg5 harg5 arg6 harg6 arg7 harg7 arg8 harg8 arg9 harg9 arg10 harg10 hc0 hc1 x0 x1 x2 x3 x4 x5).2.2.1, y ∈ pc.1.set :=
  View.cover_of_tiledL _ S512x4096.size (by sl_kernel_rfl) y
end

section
variable (hc0 : ¬cond0_0 i) (hc1 : ¬cond0_1 i) (x0 : Vec F S512x152 .bf16) (x1 : Vec F S152x256 .bf16) (x2 : Vec F S1x256 .f32) (x3 : Vec F S256x4096 .bf16) (x4 : Vec F S1x4096 .f32) (x5 : Vec F S4096x128 .bf16) (xs0 : Vec F S512x4096 .f32)
def out0_B_6 : Vec F S512x4096 .f32 := VO0_6.read (Elt F) (VO0_6.writes (Elt F) VO0_6.junk (kernelRun0_B c i arg2 harg2 arg3 harg3 arg4 harg4 arg5 harg5 arg6 harg6 arg7 harg7 arg8 harg8 arg9 harg9 arg10 harg10 hc0 hc1 x0 x1 x2 x3 x4 x5 xs0).1)
def out0_B_7 : Vec F S512x128 .f32 := VO0_7.read (Elt F) (VO0_7.writes (Elt F) VO0_7.junk (kernelRun0_B c i arg2 harg2 arg3 harg3 arg4 harg4 arg5 harg5 arg6 harg6 arg7 harg7 arg8 harg8 arg9 harg9 arg10 harg10 hc0 hc1 x0 x1 x2 x3 x4 x5 xs0).2.1)
def sout0_B_0 : Vec F S512x4096 .f32 := VS0_0.read (Elt F) (VS0_0.writes (Elt F) VS0_0.junk (kernelRun0_B c i arg2 harg2 arg3 harg3 arg4 harg4 arg5 harg5 arg6 harg6 arg7 harg7 arg8 harg8 arg9 harg9 arg10 harg10 hc0 hc1 x0 x1 x2 x3 x4 x5 xs0).2.2.1)
def trip0_B : Vec F S512x4096 .f32 × Vec F S512x128 .f32 × Vec F S512x4096 .f32 := (out0_B_6 c i arg2 harg2 arg3 harg3 arg4 harg4 arg5 harg5 arg6 harg6 arg7 harg7 arg8 harg8 arg9 harg9 arg10 harg10 hc0 hc1 x0 x1 x2 x3 x4 x5 xs0, out0_B_7 c i arg2 harg2 arg3 harg3 arg4 harg4 arg5 harg5 arg6 harg6 arg7 harg7 arg8 harg8 arg9 harg9 arg10 harg10 hc0 hc1 x0 x1 x2 x3 x4 x5 xs0, sout0_B_0 c i arg2 harg2 arg3 harg3 arg4 harg4 arg5 harg5 arg6 harg6 arg7 harg7 arg8 harg8 arg9 harg9 arg10 harg10 hc0 hc1 x0 x1 x2 x3 x4 x5 xs0)
theorem scover0_B_0 (y : S512x4096.Idx) : ∃ pc ∈ (kernelRun0_B c i arg2 harg2 arg3 harg3 arg4 harg4 arg5 harg5 arg6 harg6 arg7 harg7 arg8 harg8 arg9 harg9 arg10 harg10 hc0 hc1 x0 x1 x2 x3 x4 x5 xs0).2.2.1, y ∈ pc.1.set :=
  View.cover_of_tiledL _ S512x4096.size (by sl_kernel_rfl) y
end

section
variable (hc0 : ¬cond0_0 i) (hc1 : cond0_1 i) (x0 : Vec F S512x152 .bf16) (x1 : Vec F S152x256 .bf16) (x2 : Vec F S1x256 .f32) (x3 : Vec F S256x4096 .bf16) (x4 : Vec F S1x4096 .f32) (x5 : Vec F S4096x128 .bf16) (xs0 : Vec F S512x4096 .f32)
def out0_C_6 : Vec F S512x4096 .f32 := VO0_6.read (Elt F) (VO0_6.writes (Elt F) VO0_6.junk (kernelRun0_C c i arg2 harg2 arg3 harg3 arg4 harg4 arg5 harg5 arg6 harg6 arg7 harg7 arg8 harg8 arg9 harg9 arg10 harg10 hc0 hc1 x0 x1 x2 x3 x4 x5 xs0).1)
def out0_C_7 : Vec F S512x128 .f32 := VO0_7.read (Elt F) (VO0_7.writes (Elt F) VO0_7.junk (kernelRun0_C c i arg2 harg2 arg3 harg3 arg4 harg4 arg5 harg5 arg6 harg6 arg7 harg7 arg8 harg8 arg9 harg9 arg10 harg10 hc0 hc1 x0 x1 x2 x3 x4 x5 xs0).2.1)
def sout0_C_0 : Vec F S512x4096 .f32 := VS0_0.read (Elt F) (VS0_0.writes (Elt F) VS0_0.junk (kernelRun0_C c i arg2 harg2 arg3 harg3 arg4 harg4 arg5 harg5 arg6 harg6 arg7 harg7 arg8 harg8 arg9 harg9 arg10 harg10 hc0 hc1 x0 x1 x2 x3 x4 x5 xs0).2.2.1)
def trip0_C : Vec F S512x4096 .f32 × Vec F S512x128 .f32 × Vec F S512x4096 .f32 := (out0_C_6 c i arg2 harg2 arg3 harg3 arg4 harg4 arg5 harg5 arg6 harg6 arg7 harg7 arg8 harg8 arg9 harg9 arg10 harg10 hc0 hc1 x0 x1 x2 x3 x4 x5 xs0, out0_C_7 c i arg2 harg2 arg3 harg3 arg4 harg4 arg5 harg5 arg6 harg6 arg7 harg7 arg8 harg8 arg9 harg9 arg10 harg10 hc0 hc1 x0 x1 x2 x3 x4 x5 xs0, sout0_C_0 c i arg2 harg2 arg3 harg3 arg4 harg4 arg5 harg5 arg6 harg6 arg7 harg7 arg8 harg8 arg9 harg9 arg10 harg10 hc0 hc1 x0 x1 x2 x3 x4 x5 xs0)
theorem cover0_C_6 (y : S512x4096.Idx) : ∃ pc ∈ (kernelRun0_C c i arg2 harg2 arg3 harg3 arg4 harg4 arg5 harg5 arg6 harg6 arg7 harg7 arg8 harg8 arg9 harg9 arg10 harg10 hc0 hc1 x0 x1 x2 x3 x4 x5 xs0).1, y ∈ pc.1.set :=
  View.cover_of_tiledL _ S512x4096.size (by sl_kernel_rfl) y
theorem cover0_C_7 (y : S512x128.Idx) : ∃ pc ∈ (kernelRun0_C c i arg2 harg2 arg3 harg3 arg4 harg4 arg5 harg5 arg6 harg6 arg7 harg7 arg8 harg8 arg9 harg9 arg10 harg10 hc0 hc1 x0 x1 x2 x3 x4 x5 xs0).2.1, y ∈ pc.1.set :=
  View.cover_of_tiledL _ S512x128.size (by sl_kernel_rfl) y
theorem scover0_C_0 (y : S512x4096.Idx) : ∃ pc ∈ (kernelRun0_C c i arg2 harg2 arg3 harg3 arg4 harg4 arg5 harg5 arg6 harg6 arg7 harg7 arg8 harg8 arg9 harg9 arg10 harg10 hc0 hc1 x0 x1 x2 x3 x4 x5 xs0).2.2.1, y ∈ pc.1.set :=
  View.cover_of_tiledL _ S512x4096.size (by sl_kernel_rfl) y
end

end

section
variable (c : Dev nD) (t : Fin cfg0.N)

def ptA (h0 : t.val % 16 = 0) (h1 : ¬t.val % 16 = 15) : Vec F S512x4096 .f32 × Vec F S512x128 .f32 × Vec F S512x4096 .f32 :=
  trip0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t)

def ptB (h0 : ¬t.val % 16 = 0) (h1 : ¬t.val % 16 = 15) (xs0 : Vec F S512x4096 .f32) : Vec F S512x4096 .f32 × Vec F S512x128 .f32 × Vec F S512x4096 .f32 :=
  trip0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) xs0

def ptC (h0 : ¬t.val % 16 = 0) (h1 : t.val % 16 = 15) (xs0 : Vec F S512x4096 .f32) : Vec F S512x4096 .f32 × Vec F S512x128 .f32 × Vec F S512x4096 .f32 :=
  trip0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) xs0

end

def outsAt0 (c : Dev nD) : (n : ℕ) → n < cfg0.N → Vec F S512x4096 .f32 × Vec F S512x128 .f32 × Vec F S512x4096 .f32
  | 0, hn => ptA V c ⟨0, hn⟩ (Nat.zero_mod _) (by show ¬0 % 16 = 15; decide)
  | n + 1, hn =>
    if h0 : (n + 1) % 16 = 0 then ptA V c ⟨n + 1, hn⟩ h0 (by show ¬(n + 1) % 16 = 15; omega)
    else if h1 : (n + 1) % 16 = 15 then ptC V c ⟨n + 1, hn⟩ h0 h1 (outsAt0 c n (Nat.lt_of_succ_lt hn)).2.2
    else ptB V c ⟨n + 1, hn⟩ h0 h1 (outsAt0 c n (Nat.lt_of_succ_lt hn)).2.2

theorem outsAt0_A (c : Dev nD) (t : Fin cfg0.N) (h0 : t.val % 16 = 0) (h1 : ¬t.val % 16 = 15) :
    outsAt0 V c t.val t.isLt =
  (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t),
    out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t),
    sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t)) := by
  obtain ⟨n, hn⟩ := t
  cases n with
  | zero => rfl
  | succ n => exact (dif_pos h0).trans rfl

theorem outsAt0_B (c : Dev nD) (t : Fin cfg0.N) (h0 : ¬t.val % 16 = 0) (h1 : ¬t.val % 16 = 15) :
    outsAt0 V c t.val t.isLt =
  (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2,
    out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2,
    sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2) := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 16 = 0) (h1 : t.val % 16 = 15) :
    outsAt0 V c t.val t.isLt =
  (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2,
    out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2,
    sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2) := by
  obtain ⟨n, hn⟩ := t
  cases n with
  | zero => exact absurd (Nat.zero_mod _) h0
  | succ n => exact (dif_neg h0).trans ((dif_pos h1).trans rfl)

def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2) ∗ restS0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2) ∗ restS0 (F := F) c) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
    | ⟨7, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := rfl

theorem after0_6 (c : Dev nD) (t : Fin cfg0.N) : (dat0 V c).after 6 t = (outsAt0 V c t.val t.isLt).1 := rfl
theorem after0_7 (c : Dev nD) (t : Fin cfg0.N) : (dat0 V c).after 7 t = (outsAt0 V c t.val t.isLt).2.1 := rfl

theorem Phi_out0 (c : Dev nD) (t : Fin (cfg0.N + 1)) : (dat0 V c).Φ t ⊢ Pipeline.ΦA spec0 c := by
  by_cases hz : t.val = 0
  · exact Entails.of_eq (PhiS0_zero V c _ _ hz)
  · rw [show (dat0 V c).Φ t = PhiS0 V c t.val (Nat.le_of_lt_succ t.isLt) from rfl, PhiS0_pos V c _ _ hz, PhiA0_eq]
    iintro ⟨⟨HS0, HR⟩, Hg⟩
    isplitl [HS0 HR]
    · isplitl [HS0]
      · iexists _; iexact HS0
      iexact HR
    iexact Hg

theorem hin0 (c : Dev nD) : Pipeline.ΦA spec0 c ⊢ (dat0 V c).Φ 0 := .rfl

theorem hout0 (c : Dev nD) : (dat0 V c).Φ (Fin.last cfg0.N) ⊢ Pipeline.ΦA spec0 c := Phi_out0 V c _

-- A point is in exactly one of three cases: t mod 16 = 0, = 15, neither.
theorem body_obligation0 (c : Dev nD) : BodyObligation (dat0 (F := F) V c) (defs₀ (F := F)) Variants.none () Set.univ := fun t => by
  rw [bigSep_W0, bigSep_W0]
  dsimp only
  simp only [before0_0_of V (dat0 V c) rfl (fun _ => rfl), before0_1_of V (dat0 V c) rfl (fun _ => rfl), before0_2_of V (dat0 V c) rfl (fun _ => rfl), before0_3_of V (dat0 V c) rfl (fun _ => rfl), before0_4_of V (dat0 V c) rfl (fun _ => rfl), before0_5_of V (dat0 V c) rfl (fun _ => rfl)]
  rw [show (dat0 V c).owesAt () t.succ = (dat0 V c).owesAt () t.castSucc from rfl,
    show (dat0 V c).Φ t.succ = iprop(iprop(owns (c : Thread nD τ) scM0_0 fullShare ((outsAt0 V c t.val t.isLt).2.2) ∗ restS0 (F := F) c) ∗ (∃ r, prngReg c r)) from rfl]
  show _ ⊢ wp frame _ Set.univ (bodyAt0 t) _
  by_cases h0 : t.val % 16 = 0
  · have h1 : ¬t.val % 16 = 15 := by omega
    have hc0 := (hcond0_0 t).mpr h0
    have hc1 : ¬cond0_1 (grid0.coords t) := fun h => h1 ((hcond0_1 t).mp h)
    simp only [show idle0 6 (grid0.coords t) = true from idleAt0_6_A t hc0 hc1, show (win0 6).flush t = false from noFlush0_6_A t hc0 hc1,
      show idle0 7 (grid0.coords t) = true from idleAt0_7_A t hc0 hc1, show (win0 7).flush t = false from noFlush0_7_A t hc0 hc1]
    rw [outsAt0_A V c t h0 h1]
    unfold sout0_A_0; dsimp only
    refine (sep_mono_left (Phi_out0 V c _)).trans ?_
    rw [PhiA0_eq]
    iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords t) _ _ _ _ _ _ _ _ _ _ _ _ _ _ _ _ _ _ hc0 hc1 _ _ _ _ _ _).2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    iintro ⟨H0, H1, H2, H3, H4, H5, H6, H7, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iexists _; iexact H7
  have hc0 : ¬cond0_0 (grid0.coords t) := fun h => h0 ((hcond0_0 t).mp h)
  rw [show (dat0 V c).Φ t.castSucc = PhiS0 V c t.val (Nat.le_of_lt t.isLt) from rfl, PhiS0_pos V c _ _ (fun hz => h0 (by rw [hz]))]
  by_cases h1 : t.val % 16 = 15
  · have hc1 := (hcond0_1 t).mpr h1
    simp only [show idle0 6 (grid0.coords t) = false from liveAt0_6_C t hc0 hc1, show idle0 7 (grid0.coords t) = false from liveAt0_7_C t hc0 hc1]
    rw [after0_6, after0_7, outsAt0_C V c t h0 h1]
    unfold out0_C_6 out0_C_7 sout0_C_0; dsimp only
    iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_C c (grid0.coords t) _ _ _ _ _ _ _ _ _ _ _ _ _ _ _ _ _ _ hc0 hc1 _ _ _ _ _ _ _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    iintro ⟨H0, H1, H2, H3, H4, H5, ⟨%e6, H6⟩, ⟨%e7, H7⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover0_C_0 c _ _ _ _ _ _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover0_C_6 c _ _ _ _ _ _ _ _ _ _ _ _ _ _ _ _ _ _ _ _ _ _ _ _ _ _ _ _)
    unfold owns; iexists _; isplitr
    swap; · iexact H7
    ipureintro; exact View.read_writes_of_cover _ _ _ _ _ (cover0_C_7 c _ _ _ _ _ _ _ _ _ _ _ _ _ _ _ _ _ _ _ _ _ _ _ _ _ _ _ _)
  · have hc1 : ¬cond0_1 (grid0.coords t) := fun h => h1 ((hcond0_1 t).mp h)
    simp only [show idle0 6 (grid0.coords t) = true from idleAt0_6_B t hc0 hc1, show (win0 6).flush t = false from noFlush0_6_B t hc0 hc1,
      show idle0 7 (grid0.coords t) = true from idleAt0_7_B t hc0 hc1, show (win0 7).flush t = false from noFlush0_7_B t hc0 hc1]
    rw [outsAt0_B V c t h0 h1]
    unfold sout0_B_0; dsimp only
    iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_B c (grid0.coords t) _ _ _ _ _ _ _ _ _ _ _ _ _ _ _ _ _ _ hc0 hc1 _ _ _ _ _ _ _).2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    iintro ⟨H0, H1, H2, H3, H4, H5, H6, H7, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iexists _; iexact H7

end Cert.Kernel.Hand

end
-- ==== Proof.Kernel.R1Frame.lean ====

import proofs.«430600_j30915174596644_3_alg».proof.Proof.Gen.Kernel.Launch
import proofs.«430600_j30915174596644_3_alg».proof.Proof.Gen.Kernel.Skeleton
import proofs.«430600_j30915174596644_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rW_S512x64 : Rect S512x64 := Rect.unit (s := S512x64) ![0, 0] S512x64.size inb_S512x64_S512x64_0_0
abbrev rW_S1x4096 : Rect S1x4096 := Rect.unit (s := S1x4096) ![0, 0] S1x4096.size inb_S1x4096_S1x4096_0_0
abbrev rW_S4096x128 : Rect S4096x128 := Rect.unit (s := S4096x128) ![0, 0] S4096x128.size inb_S4096x128_S4096x128_0_0
abbrev rW_S64x64 : Rect S64x64 := Rect.unit (s := S64x64) ![0, 0] S64x64.size inb_S64x64_S64x64_0_0
abbrev rW_S8x64 : Rect S8x64 := Rect.unit (s := S8x64) ![0, 0] S8x64.size inb_S8x64_S8x64_0_0
abbrev rW_S1x8 : Rect S1x8 := Rect.unit (s := S1x8) ![0, 0] S1x8.size inb_S1x8_S1x8_0_0
abbrev rW_S1x64 : Rect S1x64 := Rect.unit (s := S1x64) ![0, 0] S1x64.size inb_S1x64_S1x64_0_0

theorem cover1_10 (p0 : Vec F S512x64 .f32) (y : S512x64.Idx) :
    ∃ pc ∈ ([⟨rW_S512x64, p0⟩] : List (View.Piece (Elt F) S512x64 .f32)), y ∈ pc.1.set :=
  View.cover_of_tiled [⟨rW_S512x64, p0⟩] S512x64.size (by rfl) y

section
variable (c : Dev nD) (arg1 : Memref sig .tc .vmem S512x64 .f32) (arg2 arg3 : Memref sig .tc .vmem S1x4096 .i32) (arg4 : Memref sig .tc .vmem S4096x128 .f32) (arg5 : Memref sig .tc .vmem S64x64 .f32) (arg6 : Memref sig .tc .vmem S8x64 .f32) (arg7 : Memref sig .tc .vmem S1x8 .f32) (arg8 : Memref sig .tc .vmem S1x64 .f32) (arg9 : Memref sig .tc .vmem S64x64 .f32) (arg10 : Memref sig .tc .vmem S1x64 .f32) (arg11 : Memref sig .tc .vmem S512x64 .f32)
  (i : grid1.Coords) (x0 : Vec F S512x64 .f32) (x1 x2 : Vec F S1x4096 .i32) (x3 : Vec F S4096x128 .f32) (x4 : Vec F S64x64 .f32) (x5 : Vec F S8x64 .f32) (x6 : Vec F S1x8 .f32) (x7 : Vec F S1x64 .f32) (x8 : Vec F S64x64 .f32) (x9 : Vec F S1x64 .f32)

def out1_10 : Vec F S512x64 .f32 :=
  View.canon [⟨rW_S512x64, k1_pay1 (k1_pay2 i (View.ld x1 rW_S1x4096) (View.ld x2 rW_S1x4096) (View.ld x3 rW_S4096x128) (View.ld x0 rW_S512x64) (View.ld x4 rW_S64x64) (View.ld x6 rW_S1x8) (View.ld x5 rW_S8x64)) (View.ld x7 rW_S1x64) (View.ld x8 rW_S64x64) (View.ld x9 rW_S1x64)⟩]

def held1 (y : Vec F S512x64 .f32) : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare y)

set_option maxHeartbeats 1000000 in
theorem sound_kernel1 (E : Set ℕ) (harg1 : arg1.IsWhole) (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (K : PUnit → sProp 𝕄) :
    iprop((∃ d, held1 c arg1 arg2 arg3 arg4 arg5 arg6 arg7 arg8 arg9 arg10 arg11 x0 x1 x2 x3 x4 x5 x6 x7 x8 x9 d) ∗ (held1 c arg1 arg2 arg3 arg4 arg5 arg6 arg7 arg8 arg9 arg10 arg11 x0 x1 x2 x3 x4 x5 x6 x7 x8 x9 (out1_10 i x0 x1 x2 x3 x4 x5 x6 x7 x8 x9) -∗ K ⟨⟩))
      ⊢ wp frame (wpE (defs₀ (F := F)) Variants.none c none) E (cc1__node_update_kernel i arg1 harg1 arg2 harg2 arg3 harg3 arg4 harg4 arg5 harg5 arg6 harg6 arg7 harg7 arg8 harg8 arg9 harg9 arg10 harg10 arg11 harg11) K := by
  sl_unfold [cc1__node_update_kernel, k1_part1]
  unfold held1 owns
  iintro ⟨⟨%d10, ⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, -, H10⟩⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  try dsimp only
  exact View.read_writes_eq_canon _ _ _ (cover1_10 _)

end

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => out1_10 (grid1.coords t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
  Φ _ := Pipeline.ΦA spec1 c
  q _ := fullShare
  owed _ := 0

theorem A_eq1 (c : Dev nD) (w : Fin cfg1.W) : (dat1 V c).A w = V c (Pipeline.arrRef spec1 w) := rfl

theorem after1_10 (c : Dev nD) (t : Fin cfg1.N) : (dat1 V c).after 10 t = out1_10 (grid1.coords t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) := rfl

theorem before1 (c : Dev nD) (t : Fin cfg1.N) : ∀ w : Fin 11, (cfg1.win w).isOut = false → ∀ d, (dat1 V c).before w t d = (dat1 V c).fetched w t d
  | 0, _, d | 1, _, d | 2, _, d | 3, _, d | 4, _, d | 5, _, d | 6, _, d | 7, _, d | 8, _, d | 9, _, d =>
    (dat1 V c).before_in_eq_fetched _ rfl (fun _ => rfl) (fun _ _ _ => rfl) (fun _ => rfl) t d
  | 10, h, _ => absurd h (by decide)
  | ⟨_ + 11, h⟩, _, _ => absurd h (Nat.not_lt.2 (Nat.le_add_left _ _))

set_option maxHeartbeats 1000000 in
theorem body_obligation1 (c : Dev nD) : BodyObligation (dat1 (F := F) V c) (defs₀ (F := F)) Variants.none () Set.univ := fun t => by
  rw [bigSep_W1, bigSep_W1]
  show _ ⊢ wp frame _ _ (bodyAt1 t) fun _ =>
    iprop((dat1 V c).Φ t.castSucc ∗ (dat1 V c).owesAt () t.castSucc ∗ held1 c _ _ _ _ _ _ _ _ _ _ _ _ _ _ _ _ _ _ _ _ _ _)
  dsimp only
  simp (disch := exact rfl) only [before1 V c t]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel1 c _ _ _ _ _ _ _ _ _ _ _ (grid1.coords t) _ _ _ _ _ _ _ _ _ _ Set.univ)
  isplitl [H0 H1 H2 H3 H4 H5 H6 H7 H8 H9 H10]
  · unfold held1; iexists _; iframe
  iintro H; iframe HΦ Ho; iexact H

end Cert.Kernel.Hand

end
-- ==== Proof.Kernel.Run.lean ====
import proofs.«430600_j30915174596644_3_alg».proof.Proof.Gen.Kernel.Regions
import Idealize.ShloMosaic.Lib.Pipeline.RegionsLoop
import Idealize.ShloMosaic.Lib.Pipeline.FrameSuffix
noncomputable section
namespace Cert.Kernel.Hand
open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)
variable {F : FTy → Type} [FloatOps F]
local notation "𝕄" => MT nD τ sig Unit (Elt F) ℕ (UR sig nD τ) ℕ

structure RegionFacts {cfg : Cfg sig Λ₀} (dat : (c : Dev nD) → Dat τ (Elt F) Unit ℕ (UR sig nD τ) ℕ cfg c) (V : (c : Dev nD) → (b : Ref sig .tc) → Buf (Elt F) ((c : Thread nD τ).loc b)) : Prop where
  A_eq : ∀ c (w : Fin cfg.W), (dat c).A w = V c (Pipeline.arrRef cfg.spec w)
  q_eq : ∀ c (w : Fin cfg.W), (dat c).q w = fullShare
  owed_eq : ∀ c (t : Fin (cfg.N + 1)), (dat c).owed t = 0
  recorded_eq : ∀ c, (dat c).recorded 0 = Set.univ
  body : ∀ c, BodyObligation (dat c) (defs₀ (F := F)) Variants.none () Set.univ
  hin : ∀ c, (Pipeline.ΦA cfg.spec c : sProp 𝕄) ⊢ (dat c).Φ 0
  hout : ∀ c, (dat c).Φ (Fin.last cfg.N) ⊢ (Pipeline.ΦA cfg.spec c : sProp 𝕄)

theorem withArrays_of_not_out {cfg : Cfg sig Λ₀} {c : Dev nD} (dat : Dat τ (Elt F) Unit ℕ (UR sig nD τ) ℕ cfg c) (hinj : Function.Injective (Pipeline.arrRef cfg.spec))
    (V : Valuation τ sig (Elt F)) (hA : ∀ w, dat.A w = V (Proc.devRef .tc (Pipeline.arrRef cfg.spec w))) (b : Ref sig .tc)
    (hb : ∀ w : Fin cfg.W, (cfg.win w).isOut = true → Pipeline.arrRef cfg.spec w ≠ b) :
    Pipeline.withArrays cfg.spec c V (fun w => dat.arrAt w cfg.N) (Proc.devRef .tc b) = V (Proc.devRef .tc b) := by
  by_cases h : ∃ w, Pipeline.arrRef cfg.spec w = b
  · obtain ⟨w, rfl⟩ := h
    exact (Pipeline.withArrays_arr _ hinj c _ _ w).trans
      ((dat.arrAt_in w (Bool.eq_false_iff.mpr fun hw => hb w hw rfl) _).trans (hA w))
  · exact Pipeline.withArrays_of_ne _ c _ _ b fun w e => h ⟨w, e⟩

theorem owesAt_first {cfg : Cfg sig Λ₀} {c : Dev nD} (dat : Dat τ (Elt F) Unit ℕ (UR sig nD τ) ℕ cfg c) (ho : dat.owed 0 = 0) (hr : dat.recorded 0 = Set.univ) :
    (iprop(∃ W, owes (c : Thread nD τ) (0 : CellTallies nD τ sig Unit) W) : sProp 𝕄) ⊢ dat.owesAt () 0 := by
  unfold Pipeline.Dat.owesAt Pipeline.owesWithin
  rw [ho]
  iintro ⟨%W, HO⟩; iexists W; isplitr
  · ipureintro; exact fun x _ => Or.inl (Set.eq_univ_iff_forall.mp hr x)
  iexact HO

theorem owesAt_last {cfg : Cfg sig Λ₀} {c : Dev nD} (dat : Dat τ (Elt F) Unit ℕ (UR sig nD τ) ℕ cfg c) (ho : dat.owed (Fin.last cfg.N) = 0) :
    dat.owesAt () (Fin.last cfg.N) ⊢ (iprop(∃ W, owes (c : Thread nD τ) (0 : CellTallies nD τ sig Unit) W) : sProp 𝕄) := by
  unfold Pipeline.Dat.owesAt Pipeline.owesWithin
  rw [ho]
  iintro ⟨%W, -, HO⟩; iexists W; iexact HO

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op (List.forall_iff_forall_mem.mp hsub op h)) (List.forall_iff_forall_mem.mp hfresh) W R

def reg (pd : (p : Fin 2) → (c : Dev nD) → Dat τ (Elt F) Unit ℕ (UR sig nD τ) ℕ (Pipeline.pin (pcfgs (F := F)) adm p) c) (p : Fin 2)
    (lf : Pipeline.LaunchFacts (nD := nD) (τ := τ) cfgs p) (V : Dev nD → Valuation τ sig (Elt F)) (h : RegionFacts (pd p) fun c b => V c b) :
    Pipeline.RegionSeg (pcfgs (F := F)) adm pd () defs₀ 𝒱₀ L lv p where
  win := lf.win.to₀
  block_pos := lf.block_pos
  stage_whole := lf.stage_whole
  K := PEmpty
  osem k := k.elim
  ho := Pipeline.OwnSemFacts.none _
  hbody c := (h.body c).loose
  hwaits := Pipeline.hwaits_of_owed_zero _ _ _ _ L lv p h.owed_eq
  pre c := iprop(StableHlo.held (c : Thread nD τ) (Pipeline.ucRefs τ sig) (V c) ∗ R c)
  post c := iprop(StableHlo.held (c : Thread nD τ) (Pipeline.ucRefs τ sig)
    (Pipeline.withArrays (cfgs p).spec c (V c) fun w => (pd p c).arrAt w (cfgs p).N) ∗ R c)
  X c := iprop(∃ r, prngReg c r)
  Y c := iprop(∃ r, prngReg c r)
  Z c := Pipeline.unscopedRest (cfgs p).spec c fun b => V c b
  hentry c := by
    rw [Pipeline.ownSems0_none]
    have hsplit := Pipeline.arrays_of_unscopedBufs (pcfgs (F := F)) adm pd lf.win lf.arr_whole c
      ((pd p c).share_full (h.q_eq c)) (fun b => V c b) (h.A_eq c)
    rw [Pipeline.unscopedBufs_held] at hsplit
    iintro ⟨⟨Hub, Hp, HO⟩, -, -⟩
    ihave ⟨Ha, Hrest⟩ := hsplit $$ Hub
    imodintro
    iframe Ha Hp Hrest
    isplitr; · unfold Pipeline.prefHeld; rw [show (Finset.univ : Finset (Fin 0)) = ∅ from rfl, BI.bigSep_empty]; iempintro
    iapply (owesAt_first (pd p c) (h.owed_eq c 0) (h.recorded_eq c))
    iexact HO
  hin c := by
    refine .trans ?_ (h.hin c)
    unfold Pipeline.ΦA
    iintro ⟨Hp, -, Hr⟩
    isplitl [Hr] <;> iassumption
  hout c := by
    rw [Pipeline.ownSems0_none]
    refine (h.hout c).trans ?_
    unfold Pipeline.ΦA
    iintro ⟨Hr, Hp⟩
    iframe; iempintro
  hexit c := by
    have hjoin := Pipeline.unscopedBufs_of_arrays (pcfgs (F := F)) adm
      lf.win lf.arr_whole c pd ((pd p c).share_full (h.q_eq c)) (fun b => V c b)
      (fun b => Pipeline.withArrays (cfgs p).spec c (V c) (fun w => (pd p c).arrAt w (cfgs p).N) b) ((pd p c).arrAt · (cfgs p).N)
      (fun w => Eq.symm (Pipeline.withArrays_arr _ lf.win.arr_inj c _ _ w))
      (fun b hb => Pipeline.withArrays_of_ne _ c _ _ b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; iframe
    isplitl [HY]; · iexact HY
    iapply (owesAt_last (pd p c) (h.owed_eq c _))
    iexact HO

abbrev EndsAt (s : MemSt nD τ sig (Elt F)) (W : Dev nD → Valuation τ sig (Elt F)) : Prop :=
  ∀ c : Dev nD, ∀ b ∈ Pipeline.ucRefs τ sig, s.mem (((c : Thread nD τ)).1, b) = W c b

section Run

variable (m : (ℓ : Loc nD τ sig) → Buf (Elt F) ℓ) (ρ : Dev nD → PrngReg)
variable (dat0 : ((c : Dev nD) → (b : Ref sig .tc) → Buf (Elt F) ((c : Thread nD τ).loc b)) → (c : Dev nD) → Dat τ (Elt F) Unit ℕ (UR sig nD τ) ℕ cfg0 c)
variable (dat1 : ((c : Dev nD) → (b : Ref sig .tc) → Buf (Elt F) ((c : Thread nD τ).loc b)) → (c : Dev nD) → Dat τ (Elt F) Unit ℕ (UR sig nD τ) ℕ cfg1 c)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
abbrev W3 : Dev nD → Valuation τ sig (Elt F) := fun c => StableHlo.after hostOps1 (W2 m ρ dat0 c)
abbrev V3 : (c : Dev nD) → (b : Ref sig .tc) → Buf (Elt F) ((c : Thread nD τ).loc b) := fun c b => W3 m ρ dat0 c b
def W4 (c : Dev nD) : Valuation τ sig (Elt F) :=
  Pipeline.withArrays spec1 c (W3 m ρ dat0 c) fun w => (dat1 (V3 m ρ dat0) c).arrAt w cfg1.N

-- A reference no host operation writes and no kernel call puts out holds at the end what the launch memory holds.
theorem W4_launch (h0 : ∀ V, RegionFacts (dat0 V) V) (h1 : ∀ V, RegionFacts (dat1 V) V) (c : Dev nD) (b : Ref sig .tc) :
    ((∀ w : Fin cfg1.W, (cfg1.win w).isOut = true → Pipeline.arrRef spec1 w ≠ b) ∧ b ∉ hostOps1_W
      ∧ (∀ w : Fin cfg0.W, (cfg0.win w).isOut = true → Pipeline.arrRef spec0 w ≠ b) ∧ b ∉ hostOps0_W) →
    W4 m ρ dat0 dat1 c (Proc.devRef .tc b) = m ((c : Thread nD τ).loc b) := fun ⟨hout1, hw1, hout0, hw0⟩ =>
  ((withArrays_of_not_out _ launch1.win.arr_inj _ ((h1 _).A_eq c) b hout1).trans
    (StableHlo.after_of_writes_sub hostOps1 _ hostOps1_writes hw1)).trans
  ((withArrays_of_not_out _ launch0.win.arr_inj _ ((h0 _).A_eq c) b hout0).trans (V1_of m c b hw0))

def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ dat0) c

abbrev segs (h0 : ∀ V, RegionFacts (dat0 V) V) (h1 : ∀ V, RegionFacts (dat1 V) V) :
    List (Pipeline.Seg (pcfgs (F := F)) adm (pdats m ρ dat0 dat1) () defs₀ 𝒱₀ L lv) :=
  [ .host (hseg hostOps0 hostOps0_sub hostOps0_fresh (W0 m ρ)),
    .region (reg (pdats m ρ dat0 dat1) 0 launch0 (W1 m ρ) (h0 _)),
    .host (hseg hostOps1 hostOps1_sub hostOps1_fresh (W2 m ρ dat0)),
    .region (reg (pdats m ρ dat0 dat1) 1 launch1 (W3 m ρ dat0) (h1 _)) ]

-- Every execution of @main from `m` ends, and a post that follows from the buffers holding the last contents holds of every final memory.
theorem run_post (h0 : ∀ V, RegionFacts (dat0 V) V) (h1 : ∀ V, RegionFacts (dat1 V) V) {Q : PUnit × MemSt nD τ sig (Elt F) → Prop}
    (hQ : ∀ s, EndsAt s (W4 m ρ dat0 dat1) → Q (⟨⟩, s)) :
    θ_run defs (onTc (τ := τ) (main (F := F))) ⟨m, fun _ => 0, ρ⟩ Q :=
  Pipeline.θ_run_regions_kit (pcfgs (F := F)) adm (pdats m ρ dat0 dat1) () cellOf_inj emb₁ defs₀ 𝒱₀ L lv m ρ main (segs m ρ dat0 dat1 h0 h1)
    (fun c Q => by rw [show main (F := F) c = Pipeline.Seg.run (segs m ρ dat0 dat1 h0 h1) from (main_chain c).trans (by chain_rfl)])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ _) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := fun c => iprop(StableHlo.held (c : Thread nD τ) (Pipeline.ucRefs τ sig) (W4 m ρ dat0 dat1 c) ∗ ∃ r, prngReg c r))
    (hch := ⟨fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ dat0 dat1 c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ dat0 dat1 c) s')
      isplitl [Hh] <;> iassumption)
    (hQ := hQ)

theorem read_final {s : MemSt nD τ sig (Elt F)} (h : EndsAt s (W4 m ρ dat0 dat1)) (c : Dev nD) (b : Ref sig .tc) (hb : ¬ (Proc.devRef .tc b : DevRef τ sig).isScoped) :
    s.mem ((c.tc : Thread nD τ).loc b) = W4 m ρ dat0 dat1 c (Proc.devRef .tc b) :=
  h c _ (Finset.mem_filter.mpr ⟨StableHlo.devRef_mem_tcRefs b, hb⟩)

end Run

end Cert.Kernel.Hand

end
-- ==== Proof.Kernel.Main.lean ====
import proofs.«430600_j30915174596644_3_alg».proof.Proof.Kernel.R0Frame
import proofs.«430600_j30915174596644_3_alg».proof.Proof.Kernel.R1Frame
import proofs.«430600_j30915174596644_3_alg».proof.Proof.Kernel.Run
noncomputable section
namespace Cert.Kernel.Hand
open Cert.Kernel Cert.Kernel.Gen
open Idealize.ShloMosaic Idealize.ShloMosaic.TcCoe
open Idealize.SL Idealize.SL.Sem
variable {F : FTy → Type} [FloatOps F]

theorem facts0 (V) : RegionFacts (F := F) (dat0 V) V :=
  ⟨A_eq0 V, fun _ _ => rfl, fun _ _ => rfl, fun _ => rfl, body_obligation0 V, hin0 V, hout0 V⟩
theorem facts1 (V) : RegionFacts (F := F) (dat1 V) V :=
  ⟨A_eq1 V, fun _ _ => rfl, fun _ _ => rfl, fun _ => rfl, body_obligation1 V, fun _ => .rfl, fun _ => .rfl⟩

variable (m : (ℓ : Loc nD τ sig) → Buf (Elt F) ℓ) (ρ : Dev nD → PrngReg)

abbrev endVal (c : Dev nD) : Valuation τ sig (Elt F) := W4 m ρ (fun V c => dat0 V c) (fun V c => dat1 V c) c

theorem kernel_run {Q : PUnit × MemSt nD τ sig (Elt F) → Prop}
    (hQ : ∀ s, EndsAt s (endVal m ρ) → Q (⟨⟩, s)) :
    θ_run defs (onTc (τ := τ) (main (F := F))) ⟨m, fun _ => 0, ρ⟩ Q :=
  run_post m ρ _ _ facts0 facts1 hQ

-- A buffer that no host operation writes and no kernel call puts out ends as launched.
theorem arg_kept {s : MemSt nD τ sig (Elt F)} (h : EndsAt s (endVal m ρ)) (c : Dev nD) (b : Ref sig .tc)
    (hb : ¬ (Proc.devRef .tc b : DevRef τ sig).isScoped ∧ (∀ w : Fin cfg1.W, (cfg1.win w).isOut = true → Pipeline.arrRef spec1 w ≠ b) ∧ b ∉ hostOps1_W
      ∧ (∀ w : Fin cfg0.W, (cfg0.win w).isOut = true → Pipeline.arrRef spec0 w ≠ b) ∧ b ∉ hostOps0_W) :
    s.mem ((c.tc : Thread nD τ).loc b) = m ((c.tc : Thread nD τ).loc b) :=
  (read_final m ρ _ _ h c b hb.1).trans (W4_launch m ρ _ _ facts0 facts1 c b hb.2)

end Cert.Kernel.Hand

end
-- ==== Proof.KernelIdeal.R0Runs.lean ====
import proofs.«430600_j30915174596644_3_alg».proof.Proof.Gen.KernelIdeal.Launch
import proofs.«430600_j30915174596644_3_alg».proof.Proof.Gen.KernelIdeal.Skeleton
import proofs.«430600_j30915174596644_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

section
variable {c : Dev nD} (dat : Dat τ (Elt F) Unit ℕ (UR sig nD τ) ℕ cfg0 c)

theorem blockOf0 (w : Fin cfg0.W) (hA : dat.A w = V c (Pipeline.arrRef spec0 w)) (t : Fin cfg0.N) : dat.blockOf w t = iblk0 V c w t := by
  unfold Dat.blockOf iblk0; rw [hA]

theorem before0_0_of (hA : dat.A 0 = V c (Pipeline.arrRef spec0 0)) (hafter : ∀ t, dat.after 0 t = iblk0 V c 0 t) (t : Fin cfg0.N) (d) :
    dat.before 0 t d = iblk0 V c 0 t :=
  (dat.before_in_eq_fetched 0 rfl (fun _ => rfl) (fun _ _ _ => rfl) (fun t => (hafter t).trans (blockOf0 V dat 0 hA t).symm) t d).trans (blockOf0 V dat 0 hA t)
theorem before0_1_of (hA : dat.A 1 = V c (Pipeline.arrRef spec0 1)) (hafter : ∀ t, dat.after 1 t = iblk0 V c 1 t) (t : Fin cfg0.N) (d) :
    dat.before 1 t d = iblk0 V c 1 t :=
  (dat.before_in_eq_fetched 1 rfl (fun _ => rfl) (fun _ _ _ => rfl) (fun t => (hafter t).trans (blockOf0 V dat 1 hA t).symm) t d).trans (blockOf0 V dat 1 hA t)
theorem before0_2_of (hA : dat.A 2 = V c (Pipeline.arrRef spec0 2)) (hafter : ∀ t, dat.after 2 t = iblk0 V c 2 t) (t : Fin cfg0.N) (d) :
    dat.before 2 t d = iblk0 V c 2 t :=
  (dat.before_in_eq_fetched 2 rfl (fun _ => rfl) (fun _ _ _ => rfl) (fun t => (hafter t).trans (blockOf0 V dat 2 hA t).symm) t d).trans (blockOf0 V dat 2 hA t)
theorem before0_3_of (hA : dat.A 3 = V c (Pipeline.arrRef spec0 3)) (hafter : ∀ t, dat.after 3 t = iblk0 V c 3 t) (t : Fin cfg0.N) (d) :
    dat.before 3 t d = iblk0 V c 3 t :=
  (dat.before_in_eq_fetched 3 rfl (fun _ => rfl) (fun _ _ _ => rfl) (fun t => (hafter t).trans (blockOf0 V dat 3 hA t).symm) t d).trans (blockOf0 V dat 3 hA t)
theorem before0_4_of (hA : dat.A 4 = V c (Pipeline.arrRef spec0 4)) (hafter : ∀ t, dat.after 4 t = iblk0 V c 4 t) (t : Fin cfg0.N) (d) :
    dat.before 4 t d = iblk0 V c 4 t :=
  (dat.before_in_eq_fetched 4 rfl (fun _ => rfl) (fun _ _ _ => rfl) (fun t => (hafter t).trans (blockOf0 V dat 4 hA t).symm) t d).trans (blockOf0 V dat 4 hA t)
theorem before0_5_of (hA : dat.A 5 = V c (Pipeline.arrRef spec0 5)) (hafter : ∀ t, dat.after 5 t = iblk0 V c 5 t) (t : Fin cfg0.N) (d) :
    dat.before 5 t d = iblk0 V c 5 t :=
  (dat.before_in_eq_fetched 5 rfl (fun _ => rfl) (fun _ _ _ => rfl) (fun t => (hafter t).trans (blockOf0 V dat 5 hA t).symm) t d).trans (blockOf0 V dat 5 hA t)
end

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 := by decide +kernel
abbrev cond0_1 (i : grid0.Coords) : Prop := k0_cond2 i = 1#1
theorem hcond0_1 : ∀ t : Fin cfg0.N, cond0_1 (grid0.coords t) ↔ t.val % 16 = 15 := by decide +kernel
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem idleAt0_6_A : ∀ t : Fin cfg0.N, cond0_0 (grid0.coords t) → ¬cond0_1 (grid0.coords t) → cfg0.idle 6 (grid0.coords t) = true := by decide +kernel
theorem noFlush0_6_A : ∀ t : Fin cfg0.N, cond0_0 (grid0.coords t) → ¬cond0_1 (grid0.coords t) → (cfg0.win 6).flush t = false := by decide +kernel
theorem idleAt0_6_B : ∀ t : Fin cfg0.N, ¬cond0_0 (grid0.coords t) → ¬cond0_1 (grid0.coords t) → cfg0.idle 6 (grid0.coords t) = true := by decide +kernel
theorem noFlush0_6_B : ∀ t : Fin cfg0.N, ¬cond0_0 (grid0.coords t) → ¬cond0_1 (grid0.coords t) → (cfg0.win 6).flush t = false := by decide +kernel
theorem liveAt0_6_C : ∀ t : Fin cfg0.N, ¬cond0_0 (grid0.coords t) → cond0_1 (grid0.coords t) → cfg0.idle 6 (grid0.coords t) = false := by decide +kernel
theorem idleAt0_7_A : ∀ t : Fin cfg0.N, cond0_0 (grid0.coords t) → ¬cond0_1 (grid0.coords t) → cfg0.idle 7 (grid0.coords t) = true := by decide +kernel
theorem noFlush0_7_A : ∀ t : Fin cfg0.N, cond0_0 (grid0.coords t) → ¬cond0_1 (grid0.coords t) → (cfg0.win 7).flush t = false := by decide +kernel
theorem idleAt0_7_B : ∀ t : Fin cfg0.N, ¬cond0_0 (grid0.coords t) → ¬cond0_1 (grid0.coords t) → cfg0.idle 7 (grid0.coords t) = true := by decide +kernel
theorem noFlush0_7_B : ∀ t : Fin cfg0.N, ¬cond0_0 (grid0.coords t) → ¬cond0_1 (grid0.coords t) → (cfg0.win 7).flush t = false := by decide +kernel
theorem liveAt0_7_C : ∀ t : Fin cfg0.N, ¬cond0_0 (grid0.coords t) → cond0_1 (grid0.coords t) → cfg0.idle 7 (grid0.coords t) = false := by decide +kernel

abbrev VO0_6 : View sig .tc .vmem S512x4096 .f32 := (Memref.whole cc0_stg6_0 : Memref sig .tc .vmem S512x4096 .f32).view
abbrev VO0_7 : View sig .tc .vmem S512x128 .f32 := (Memref.whole cc0_stg7_0 : Memref sig .tc .vmem S512x128 .f32).view
section
variable (t : Fin cfg0.N)
abbrev ms0_0 : Memref sig .tc .vmem S512x152 .bf16 := win0_0.stage (cfg0.slots t 0)
abbrev hs0_0 : (ms0_0 t).IsWhole := hstage0_0 ((cfg0.slots t 0).cast nbuf0_0)
abbrev ms0_1 : Memref sig .tc .vmem S152x256 .bf16 := win0_1.stage (cfg0.slots t 1)
abbrev hs0_1 : (ms0_1 t).IsWhole := hstage0_1 ((cfg0.slots t 1).cast nbuf0_1)
abbrev ms0_2 : Memref sig .tc .vmem S1x256 .f32 := win0_2.stage (cfg0.slots t 2)
abbrev hs0_2 : (ms0_2 t).IsWhole := hstage0_2 ((cfg0.slots t 2).cast nbuf0_2)
abbrev ms0_3 : Memref sig .tc .vmem S256x4096 .bf16 := win0_3.stage (cfg0.slots t 3)
abbrev hs0_3 : (ms0_3 t).IsWhole := hstage0_3 ((cfg0.slots t 3).cast nbuf0_3)
abbrev ms0_4 : Memref sig .tc .vmem S1x4096 .f32 := win0_4.stage (cfg0.slots t 4)
abbrev hs0_4 : (ms0_4 t).IsWhole := hstage0_4 ((cfg0.slots t 4).cast nbuf0_4)
abbrev ms0_5 : Memref sig .tc .vmem S4096x128 .bf16 := win0_5.stage (cfg0.slots t 5)
abbrev hs0_5 : (ms0_5 t).IsWhole := hstage0_5 ((cfg0.slots t 5).cast nbuf0_5)
abbrev ms0_6 : Memref sig .tc .vmem S512x4096 .f32 := win0_6.stage (cfg0.slots t 6)
abbrev hs0_6 : (ms0_6 t).IsWhole := hstage0_6 ((cfg0.slots t 6).cast nbuf0_6)
abbrev ms0_7 : Memref sig .tc .vmem S512x128 .f32 := win0_7.stage (cfg0.slots t 7)
abbrev hs0_7 : (ms0_7 t).IsWhole := hstage0_7 ((cfg0.slots t 7).cast nbuf0_7)
end
abbrev scM0_0 : Memref sig .tc .vmem S512x4096 .f32 := Memref.whole cc0_scratch0
abbrev VS0_0 : View sig .tc .vmem S512x4096 .f32 := scM0_0.view

def restS0 (c : Dev nD) : sProp 𝕄 :=
  bigSepL [cc1_stg0_0, cc1_stg0_1, cc1_stg1_0, cc1_stg2_0, cc1_stg3_0, cc1_stg4_0, cc1_stg5_0, cc1_stg6_0, cc1_stg7_0, cc1_stg8_0, cc1_stg9_0, cc1_stg10_0, cc1_stg10_1]
    fun b => iprop(∃ f : Buf (Elt F) ((c : Thread nD τ).loc b), ((c : Thread nD τ).loc b) ↦{fullShare} f)

theorem PhiA0_eq (c : Dev nD) :
    (Pipeline.ΦA spec0 c : sProp 𝕄)
      = iprop(iprop((∃ d, owns c scM0_0 fullShare d) ∗ restS0 (F := F) c) ∗ (∃ r, prngReg c r)) := by
  unfold Pipeline.ΦA restS0; rw [scopedRest0_eq]; simp only [scM0_0, owns_whole]; rfl

theorem owns_unread (c : Dev nD) {sp : Space} {s : Shape} {e : EltTy} {m : Memref sig .tc sp s e} (h : m.IsWhole) (q : PosShare TreeShare)
    (X : s.Idx → Elt F e) : (owns c m q X : sProp 𝕄) = (m.view.loc c ↦[m.view.set]{q} h.unread X) := by
  unfold owns
  refine BI.equiv_iff.mp ⟨show _ ⊢ (_ : sProp 𝕄) from ?_, show _ ⊢ (_ : sProp 𝕄) from ?_⟩
  · iintro ⟨%f, %hf, H⟩; obtain rfl := h.eq_unread hf; iexact H
  · iintro H; iexists _; isplitr; · ipureintro; exact h.read_unread _
    iexact H

end Cert.KernelIdeal.Hand

end
-- ==== Proof.KernelIdeal.R0RunA.lean ====
import proofs.«430600_j30915174596644_3_alg».proof.Proof.KernelIdeal.R0Runs
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄" => MT nD τ sig Unit (Elt F) ℕ (UR sig nD τ) ℕ

noncomputable def kernelRun0_A (c : Dev nD) (i : grid0.Coords) (arg2 : Memref sig .tc .vmem S512x152 .bf16) (harg2 : arg2.IsWhole) (arg3 : Memref sig .tc .vmem S152x256 .bf16) (harg3 : arg3.IsWhole) (arg4 : Memref sig .tc .vmem S1x256 .f32) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S4096x128 .bf16) (harg7 : arg7.IsWhole) (arg8 : Memref sig .tc .vmem S512x4096 .f32) (harg8 : arg8.IsWhole) (arg9 : Memref sig .tc .vmem S512x128 .f32) (harg9 : arg9.IsWhole) (arg10 : Memref sig .tc .vmem S512x4096 .f32) (harg10 : arg10.IsWhole) (hc0 : cond0_0 i) (hc1 : ¬cond0_1 i)
    (x0 : Vec F S512x152 .bf16) (x1 : Vec F S152x256 .bf16) (x2 : Vec F S1x256 .f32) (x3 : Vec F S256x4096 .bf16) (x4 : Vec F S1x4096 .f32) (x5 : Vec F S4096x128 .bf16) :
    Σ' (L6 : List (View.Piece (Elt F) S512x4096 .f32)), Σ' (L7 : List (View.Piece (Elt F) S512x128 .f32)), { LS0 : List (View.Piece (Elt F) S512x4096 .f32) //
      ∀ (xi6 : Vec F S512x4096 .f32) (xi7 : Vec F S512x128 .f32) (E : Set ℕ) (K : PUnit → sProp 𝕄),
        iprop(owns c arg2 fullShare x0 ∗ owns c arg3 fullShare x1 ∗ owns c arg4 fullShare x2 ∗ owns c arg5 fullShare x3 ∗ owns c arg6 fullShare x4 ∗ owns c arg7 fullShare x5 ∗ owns c arg8 fullShare xi6 ∗ owns c arg9 fullShare xi7 ∗ (∃ d, owns c arg10 fullShare d)
            ∗ (iprop(owns c arg2 fullShare x0 ∗ owns c arg3 fullShare x1 ∗ owns c arg4 fullShare x2 ∗ owns c arg5 fullShare x3 ∗ owns c arg6 fullShare x4 ∗ owns c arg7 fullShare x5 ∗ owns c arg8 fullShare xi6 ∗ owns c arg9 fullShare xi7 ∗ (∃ f, arg10.view.loc c ↦[arg10.view.set]{fullShare} arg10.view.writes (Elt F) f LS0)) -∗ K ⟨⟩))
          ⊢ wp frame (wpE (defs₀ (F := F)) Variants.none c none) E (cc0__edge_fused_kernel i arg2 harg2 arg3 harg3 arg4 harg4 arg5 harg5 arg6 harg6 arg7 harg7 arg8 harg8 arg9 harg9 arg10 harg10) K } := by
  refine ⟨[], [], ?_, fun xi6 xi7 E K => ?run⟩
  case run =>
    simp only [cc0__edge_fused_kernel_eq_skeleton, owns_unread c harg2, owns_unread c harg3, owns_unread c harg4, owns_unread c harg5, owns_unread c harg6, owns_unread c harg7, owns_unread c harg8, owns_unread c harg9, owns_unread c harg10]
    unfold cc0__edge_fused_kernel_skel
    iintro ⟨H0, H1, H2, H3, H4, H5, H6, H7, ⟨%ds0, HS0⟩, Hk⟩
    sl_exec (disch := first | exact hc0 | exact hc1)
    sl_step
    iapply Hk
    iframe H0 H1 H2 H3 H4 H5 H6 H7
    iexists _; iexact HS0

end Cert.KernelIdeal.Hand

end
-- ==== Proof.KernelIdeal.R0RunB.lean ====
import proofs.«430600_j30915174596644_3_alg».proof.Proof.KernelIdeal.R0RunA
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄" => MT nD τ sig Unit (Elt F) ℕ (UR sig nD τ) ℕ

noncomputable def kernelRun0_B (c : Dev nD) (i : grid0.Coords) (arg2 : Memref sig .tc .vmem S512x152 .bf16) (harg2 : arg2.IsWhole) (arg3 : Memref sig .tc .vmem S152x256 .bf16) (harg3 : arg3.IsWhole) (arg4 : Memref sig .tc .vmem S1x256 .f32) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S4096x128 .bf16) (harg7 : arg7.IsWhole) (arg8 : Memref sig .tc .vmem S512x4096 .f32) (harg8 : arg8.IsWhole) (arg9 : Memref sig .tc .vmem S512x128 .f32) (harg9 : arg9.IsWhole) (arg10 : Memref sig .tc .vmem S512x4096 .f32) (harg10 : arg10.IsWhole) (hc0 : ¬cond0_0 i) (hc1 : ¬cond0_1 i)
    (x0 : Vec F S512x152 .bf16) (x1 : Vec F S152x256 .bf16) (x2 : Vec F S1x256 .f32) (x3 : Vec F S256x4096 .bf16) (x4 : Vec F S1x4096 .f32) (x5 : Vec F S4096x128 .bf16) (xs0 : Vec F S512x4096 .f32) :
    Σ' (L6 : List (View.Piece (Elt F) S512x4096 .f32)), Σ' (L7 : List (View.Piece (Elt F) S512x128 .f32)), { LS0 : List (View.Piece (Elt F) S512x4096 .f32) //
      ∀ (xi6 : Vec F S512x4096 .f32) (xi7 : Vec F S512x128 .f32) (E : Set ℕ) (K : PUnit → sProp 𝕄),
        iprop(owns c arg2 fullShare x0 ∗ owns c arg3 fullShare x1 ∗ owns c arg4 fullShare x2 ∗ owns c arg5 fullShare x3 ∗ owns c arg6 fullShare x4 ∗ owns c arg7 fullShare x5 ∗ owns c arg8 fullShare xi6 ∗ owns c arg9 fullShare xi7 ∗ owns c arg10 fullShare xs0
            ∗ (iprop(owns c arg2 fullShare x0 ∗ owns c arg3 fullShare x1 ∗ owns c arg4 fullShare x2 ∗ owns c arg5 fullShare x3 ∗ owns c arg6 fullShare x4 ∗ owns c arg7 fullShare x5 ∗ owns c arg8 fullShare xi6 ∗ owns c arg9 fullShare xi7 ∗ (∃ f, arg10.view.loc c ↦[arg10.view.set]{fullShare} arg10.view.writes (Elt F) f LS0)) -∗ K ⟨⟩))
          ⊢ wp frame (wpE (defs₀ (F := F)) Variants.none c none) E (cc0__edge_fused_kernel i arg2 harg2 arg3 harg3 arg4 harg4 arg5 harg5 arg6 harg6 arg7 harg7 arg8 harg8 arg9 harg9 arg10 harg10) K } := by
  refine ⟨[], [], ?_, fun xi6 xi7 E K => ?run⟩
  case run =>
    simp only [cc0__edge_fused_kernel_eq_skeleton, owns_unread c harg2, owns_unread c harg3, owns_unread c harg4, owns_unread c harg5, owns_unread c harg6, owns_unread c harg7, owns_unread c harg8, owns_unread c harg9, owns_unread c harg10]
    unfold cc0__edge_fused_kernel_skel
    iintro ⟨H0, H1, H2, H3, H4, H5, H6, H7, HS0, Hk⟩
    sl_exec (disch := first | exact hc0 | exact hc1)
    sl_step
    iapply Hk
    iframe H0 H1 H2 H3 H4 H5 H6 H7
    iexists _; iexact HS0

end Cert.KernelIdeal.Hand

end
-- ==== Proof.KernelIdeal.R0RunC.lean ====
import proofs.«430600_j30915174596644_3_alg».proof.Proof.KernelIdeal.R0RunB
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄" => MT nD τ sig Unit (Elt F) ℕ (UR sig nD τ) ℕ

noncomputable def kernelRun0_C (c : Dev nD) (i : grid0.Coords) (arg2 : Memref sig .tc .vmem S512x152 .bf16) (harg2 : arg2.IsWhole) (arg3 : Memref sig .tc .vmem S152x256 .bf16) (harg3 : arg3.IsWhole) (arg4 : Memref sig .tc .vmem S1x256 .f32) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S4096x128 .bf16) (harg7 : arg7.IsWhole) (arg8 : Memref sig .tc .vmem S512x4096 .f32) (harg8 : arg8.IsWhole) (arg9 : Memref sig .tc .vmem S512x128 .f32) (harg9 : arg9.IsWhole) (arg10 : Memref sig .tc .vmem S512x4096 .f32) (harg10 : arg10.IsWhole) (hc0 : ¬cond0_0 i) (hc1 : cond0_1 i)
    (x0 : Vec F S512x152 .bf16) (x1 : Vec F S152x256 .bf16) (x2 : Vec F S1x256 .f32) (x3 : Vec F S256x4096 .bf16) (x4 : Vec F S1x4096 .f32) (x5 : Vec F S4096x128 .bf16) (xs0 : Vec F S512x4096 .f32) :
    Σ' (L6 : List (View.Piece (Elt F) S512x4096 .f32)), Σ' (L7 : List (View.Piece (Elt F) S512x128 .f32)), { LS0 : List (View.Piece (Elt F) S512x4096 .f32) //
      ∀ (E : Set ℕ) (K : PUnit → sProp 𝕄),
        iprop(owns c arg2 fullShare x0 ∗ owns c arg3 fullShare x1 ∗ owns c arg4 fullShare x2 ∗ owns c arg5 fullShare x3 ∗ owns c arg6 fullShare x4 ∗ owns c arg7 fullShare x5 ∗ (∃ d, owns c arg8 fullShare d) ∗ (∃ d, owns c arg9 fullShare d) ∗ owns c arg10 fullShare xs0
            ∗ (iprop(owns c arg2 fullShare x0 ∗ owns c arg3 fullShare x1 ∗ owns c arg4 fullShare x2 ∗ owns c arg5 fullShare x3 ∗ owns c arg6 fullShare x4 ∗ owns c arg7 fullShare x5 ∗ (∃ f, arg8.view.loc c ↦[arg8.view.set]{fullShare} arg8.view.writes (Elt F) f L6) ∗ (∃ f, arg9.view.loc c ↦[arg9.view.set]{fullShare} arg9.view.writes (Elt F) f L7) ∗ (∃ f, arg10.view.loc c ↦[arg10.view.set]{fullShare} arg10.view.writes (Elt F) f LS0)) -∗ K ⟨⟩))
          ⊢ wp frame (wpE (defs₀ (F := F)) Variants.none c none) E (cc0__edge_fused_kernel i arg2 harg2 arg3 harg3 arg4 harg4 arg5 harg5 arg6 harg6 arg7 harg7 arg8 harg8 arg9 harg9 arg10 harg10) K } := by
  refine ⟨?_, ?_, ?_, fun E K => ?run⟩
  case run =>
    simp only [cc0__edge_fused_kernel_eq_skeleton, owns_unread c harg2, owns_unread c harg3, owns_unread c harg4, owns_unread c harg5, owns_unread c harg6, owns_unread c harg7, owns_unread c harg8, owns_unread c harg9, owns_unread c harg10]
    unfold cc0__edge_fused_kernel_skel
    iintro ⟨H0, H1, H2, H3, H4, H5, ⟨%d6, H6⟩, ⟨%d7, H7⟩, HS0, Hk⟩
    sl_exec (disch := first | exact hc0 | exact hc1)
    sl_step
    iapply Hk
    iframe H0 H1 H2 H3 H4 H5
    isplitl [H6]; · iexists _; iexact H6
    isplitl [H7]; · iexists _; iexact H7
    iexists _; iexact HS0

end Cert.KernelIdeal.Hand

end
-- ==== Proof.KernelIdeal.R0Frame.lean ====
import proofs.«430600_j30915174596644_3_alg».proof.Proof.KernelIdeal.R0RunC
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

section
variable (c : Dev nD) (i : grid0.Coords) (arg2 : Memref sig .tc .vmem S512x152 .bf16) (harg2 : arg2.IsWhole) (arg3 : Memref sig .tc .vmem S152x256 .bf16) (harg3 : arg3.IsWhole) (arg4 : Memref sig .tc .vmem S1x256 .f32) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S4096x128 .bf16) (harg7 : arg7.IsWhole) (arg8 : Memref sig .tc .vmem S512x4096 .f32) (harg8 : arg8.IsWhole) (arg9 : Memref sig .tc .vmem S512x128 .f32) (harg9 : arg9.IsWhole) (arg10 : Memref sig .tc .vmem S512x4096 .f32) (harg10 : arg10.IsWhole)

section
variable (hc0 : cond0_0 i) (hc1 : ¬cond0_1 i) (x0 : Vec F S512x152 .bf16) (x1 : Vec F S152x256 .bf16) (x2 : Vec F S1x256 .f32) (x3 : Vec F S256x4096 .bf16) (x4 : Vec F S1x4096 .f32) (x5 : Vec F S4096x128 .bf16)
def out0_A_6 : Vec F S512x4096 .f32 := VO0_6.read (Elt F) (VO0_6.writes (Elt F) VO0_6.junk (kernelRun0_A c i arg2 harg2 arg3 harg3 arg4 harg4 arg5 harg5 arg6 harg6 arg7 harg7 arg8 harg8 arg9 harg9 arg10 harg10 hc0 hc1 x0 x1 x2 x3 x4 x5).1)
def out0_A_7 : Vec F S512x128 .f32 := VO0_7.read (Elt F) (VO0_7.writes (Elt F) VO0_7.junk (kernelRun0_A c i arg2 harg2 arg3 harg3 arg4 harg4 arg5 harg5 arg6 harg6 arg7 harg7 arg8 harg8 arg9 harg9 arg10 harg10 hc0 hc1 x0 x1 x2 x3 x4 x5).2.1)
def sout0_A_0 : Vec F S512x4096 .f32 := VS0_0.read (Elt F) (VS0_0.writes (Elt F) VS0_0.junk (kernelRun0_A c i arg2 harg2 arg3 harg3 arg4 harg4 arg5 harg5 arg6 harg6 arg7 harg7 arg8 harg8 arg9 harg9 arg10 harg10 hc0 hc1 x0 x1 x2 x3 x4 x5).2.2.1)
def trip0_A : Vec F S512x4096 .f32 × Vec F S512x128 .f32 × Vec F S512x4096 .f32 := (out0_A_6 c i arg2 harg2 arg3 harg3 arg4 harg4 arg5 harg5 arg6 harg6 arg7 harg7 arg8 harg8 arg9 harg9 arg10 harg10 hc0 hc1 x0 x1 x2 x3 x4 x5, out0_A_7 c i arg2 harg2 arg3 harg3 arg4 harg4 arg5 harg5 arg6 harg6 arg7 harg7 arg8 harg8 arg9 harg9 arg10 harg10 hc0 hc1 x0 x1 x2 x3 x4 x5, sout0_A_0 c i arg2 harg2 arg3 harg3 arg4 harg4 arg5 harg5 arg6 harg6 arg7 harg7 arg8 harg8 arg9 harg9 arg10 harg10 hc0 hc1 x0 x1 x2 x3 x4 x5)
theorem scover0_A_0 (y : S512x4096.Idx) : ∃ pc ∈ (kernelRun0_A c i arg2 harg2 arg3 harg3 arg4 harg4 arg5 harg5 arg6 harg6 arg7 harg7 arg8 harg8 arg9 harg9 arg10 harg10 hc0 hc1 x0 x1 x2 x3 x4 x5).2.2.1, y ∈ pc.1.set :=
  View.cover_of_tiledL _ S512x4096.size (by sl_kernel_rfl) y
end

section
variable (hc0 : ¬cond0_0 i) (hc1 : ¬cond0_1 i) (x0 : Vec F S512x152 .bf16) (x1 : Vec F S152x256 .bf16) (x2 : Vec F S1x256 .f32) (x3 : Vec F S256x4096 .bf16) (x4 : Vec F S1x4096 .f32) (x5 : Vec F S4096x128 .bf16) (xs0 : Vec F S512x4096 .f32)
def out0_B_6 : Vec F S512x4096 .f32 := VO0_6.read (Elt F) (VO0_6.writes (Elt F) VO0_6.junk (kernelRun0_B c i arg2 harg2 arg3 harg3 arg4 harg4 arg5 harg5 arg6 harg6 arg7 harg7 arg8 harg8 arg9 harg9 arg10 harg10 hc0 hc1 x0 x1 x2 x3 x4 x5 xs0).1)
def out0_B_7 : Vec F S512x128 .f32 := VO0_7.read (Elt F) (VO0_7.writes (Elt F) VO0_7.junk (kernelRun0_B c i arg2 harg2 arg3 harg3 arg4 harg4 arg5 harg5 arg6 harg6 arg7 harg7 arg8 harg8 arg9 harg9 arg10 harg10 hc0 hc1 x0 x1 x2 x3 x4 x5 xs0).2.1)
def sout0_B_0 : Vec F S512x4096 .f32 := VS0_0.read (Elt F) (VS0_0.writes (Elt F) VS0_0.junk (kernelRun0_B c i arg2 harg2 arg3 harg3 arg4 harg4 arg5 harg5 arg6 harg6 arg7 harg7 arg8 harg8 arg9 harg9 arg10 harg10 hc0 hc1 x0 x1 x2 x3 x4 x5 xs0).2.2.1)
def trip0_B : Vec F S512x4096 .f32 × Vec F S512x128 .f32 × Vec F S512x4096 .f32 := (out0_B_6 c i arg2 harg2 arg3 harg3 arg4 harg4 arg5 harg5 arg6 harg6 arg7 harg7 arg8 harg8 arg9 harg9 arg10 harg10 hc0 hc1 x0 x1 x2 x3 x4 x5 xs0, out0_B_7 c i arg2 harg2 arg3 harg3 arg4 harg4 arg5 harg5 arg6 harg6 arg7 harg7 arg8 harg8 arg9 harg9 arg10 harg10 hc0 hc1 x0 x1 x2 x3 x4 x5 xs0, sout0_B_0 c i arg2 harg2 arg3 harg3 arg4 harg4 arg5 harg5 arg6 harg6 arg7 harg7 arg8 harg8 arg9 harg9 arg10 harg10 hc0 hc1 x0 x1 x2 x3 x4 x5 xs0)
theorem scover0_B_0 (y : S512x4096.Idx) : ∃ pc ∈ (kernelRun0_B c i arg2 harg2 arg3 harg3 arg4 harg4 arg5 harg5 arg6 harg6 arg7 harg7 arg8 harg8 arg9 harg9 arg10 harg10 hc0 hc1 x0 x1 x2 x3 x4 x5 xs0).2.2.1, y ∈ pc.1.set :=
  View.cover_of_tiledL _ S512x4096.size (by sl_kernel_rfl) y
end

section
variable (hc0 : ¬cond0_0 i) (hc1 : cond0_1 i) (x0 : Vec F S512x152 .bf16) (x1 : Vec F S152x256 .bf16) (x2 : Vec F S1x256 .f32) (x3 : Vec F S256x4096 .bf16) (x4 : Vec F S1x4096 .f32) (x5 : Vec F S4096x128 .bf16) (xs0 : Vec F S512x4096 .f32)
def out0_C_6 : Vec F S512x4096 .f32 := VO0_6.read (Elt F) (VO0_6.writes (Elt F) VO0_6.junk (kernelRun0_C c i arg2 harg2 arg3 harg3 arg4 harg4 arg5 harg5 arg6 harg6 arg7 harg7 arg8 harg8 arg9 harg9 arg10 harg10 hc0 hc1 x0 x1 x2 x3 x4 x5 xs0).1)
def out0_C_7 : Vec F S512x128 .f32 := VO0_7.read (Elt F) (VO0_7.writes (Elt F) VO0_7.junk (kernelRun0_C c i arg2 harg2 arg3 harg3 arg4 harg4 arg5 harg5 arg6 harg6 arg7 harg7 arg8 harg8 arg9 harg9 arg10 harg10 hc0 hc1 x0 x1 x2 x3 x4 x5 xs0).2.1)
def sout0_C_0 : Vec F S512x4096 .f32 := VS0_0.read (Elt F) (VS0_0.writes (Elt F) VS0_0.junk (kernelRun0_C c i arg2 harg2 arg3 harg3 arg4 harg4 arg5 harg5 arg6 harg6 arg7 harg7 arg8 harg8 arg9 harg9 arg10 harg10 hc0 hc1 x0 x1 x2 x3 x4 x5 xs0).2.2.1)
def trip0_C : Vec F S512x4096 .f32 × Vec F S512x128 .f32 × Vec F S512x4096 .f32 := (out0_C_6 c i arg2 harg2 arg3 harg3 arg4 harg4 arg5 harg5 arg6 harg6 arg7 harg7 arg8 harg8 arg9 harg9 arg10 harg10 hc0 hc1 x0 x1 x2 x3 x4 x5 xs0, out0_C_7 c i arg2 harg2 arg3 harg3 arg4 harg4 arg5 harg5 arg6 harg6 arg7 harg7 arg8 harg8 arg9 harg9 arg10 harg10 hc0 hc1 x0 x1 x2 x3 x4 x5 xs0, sout0_C_0 c i arg2 harg2 arg3 harg3 arg4 harg4 arg5 harg5 arg6 harg6 arg7 harg7 arg8 harg8 arg9 harg9 arg10 harg10 hc0 hc1 x0 x1 x2 x3 x4 x5 xs0)
theorem cover0_C_6 (y : S512x4096.Idx) : ∃ pc ∈ (kernelRun0_C c i arg2 harg2 arg3 harg3 arg4 harg4 arg5 harg5 arg6 harg6 arg7 harg7 arg8 harg8 arg9 harg9 arg10 harg10 hc0 hc1 x0 x1 x2 x3 x4 x5 xs0).1, y ∈ pc.1.set :=
  View.cover_of_tiledL _ S512x4096.size (by sl_kernel_rfl) y
theorem cover0_C_7 (y : S512x128.Idx) : ∃ pc ∈ (kernelRun0_C c i arg2 harg2 arg3 harg3 arg4 harg4 arg5 harg5 arg6 harg6 arg7 harg7 arg8 harg8 arg9 harg9 arg10 harg10 hc0 hc1 x0 x1 x2 x3 x4 x5 xs0).2.1, y ∈ pc.1.set :=
  View.cover_of_tiledL _ S512x128.size (by sl_kernel_rfl) y
theorem scover0_C_0 (y : S512x4096.Idx) : ∃ pc ∈ (kernelRun0_C c i arg2 harg2 arg3 harg3 arg4 harg4 arg5 harg5 arg6 harg6 arg7 harg7 arg8 harg8 arg9 harg9 arg10 harg10 hc0 hc1 x0 x1 x2 x3 x4 x5 xs0).2.2.1, y ∈ pc.1.set :=
  View.cover_of_tiledL _ S512x4096.size (by sl_kernel_rfl) y
end

end

section
variable (c : Dev nD) (t : Fin cfg0.N)

def ptA (h0 : t.val % 16 = 0) (h1 : ¬t.val % 16 = 15) : Vec F S512x4096 .f32 × Vec F S512x128 .f32 × Vec F S512x4096 .f32 :=
  trip0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t)

def ptB (h0 : ¬t.val % 16 = 0) (h1 : ¬t.val % 16 = 15) (xs0 : Vec F S512x4096 .f32) : Vec F S512x4096 .f32 × Vec F S512x128 .f32 × Vec F S512x4096 .f32 :=
  trip0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) xs0

def ptC (h0 : ¬t.val % 16 = 0) (h1 : t.val % 16 = 15) (xs0 : Vec F S512x4096 .f32) : Vec F S512x4096 .f32 × Vec F S512x128 .f32 × Vec F S512x4096 .f32 :=
  trip0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) xs0

end

def outsAt0 (c : Dev nD) : (n : ℕ) → n < cfg0.N → Vec F S512x4096 .f32 × Vec F S512x128 .f32 × Vec F S512x4096 .f32
  | 0, hn => ptA V c ⟨0, hn⟩ (Nat.zero_mod _) (by show ¬0 % 16 = 15; decide)
  | n + 1, hn =>
    if h0 : (n + 1) % 16 = 0 then ptA V c ⟨n + 1, hn⟩ h0 (by show ¬(n + 1) % 16 = 15; omega)
    else if h1 : (n + 1) % 16 = 15 then ptC V c ⟨n + 1, hn⟩ h0 h1 (outsAt0 c n (Nat.lt_of_succ_lt hn)).2.2
    else ptB V c ⟨n + 1, hn⟩ h0 h1 (outsAt0 c n (Nat.lt_of_succ_lt hn)).2.2

theorem outsAt0_A (c : Dev nD) (t : Fin cfg0.N) (h0 : t.val % 16 = 0) (h1 : ¬t.val % 16 = 15) :
    outsAt0 V c t.val t.isLt =
  (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t),
    out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t),
    sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t)) := by
  obtain ⟨n, hn⟩ := t
  cases n with
  | zero => rfl
  | succ n => exact (dif_pos h0).trans rfl

theorem outsAt0_B (c : Dev nD) (t : Fin cfg0.N) (h0 : ¬t.val % 16 = 0) (h1 : ¬t.val % 16 = 15) :
    outsAt0 V c t.val t.isLt =
  (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2,
    out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2,
    sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2) := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 16 = 0) (h1 : t.val % 16 = 15) :
    outsAt0 V c t.val t.isLt =
  (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2,
    out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2,
    sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2) := by
  obtain ⟨n, hn⟩ := t
  cases n with
  | zero => exact absurd (Nat.zero_mod _) h0
  | succ n => exact (dif_neg h0).trans ((dif_pos h1).trans rfl)

def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2) ∗ restS0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2) ∗ restS0 (F := F) c) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
    | ⟨7, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := rfl

theorem after0_6 (c : Dev nD) (t : Fin cfg0.N) : (dat0 V c).after 6 t = (outsAt0 V c t.val t.isLt).1 := rfl
theorem after0_7 (c : Dev nD) (t : Fin cfg0.N) : (dat0 V c).after 7 t = (outsAt0 V c t.val t.isLt).2.1 := rfl

theorem Phi_out0 (c : Dev nD) (t : Fin (cfg0.N + 1)) : (dat0 V c).Φ t ⊢ Pipeline.ΦA spec0 c := by
  by_cases hz : t.val = 0
  · exact Entails.of_eq (PhiS0_zero V c _ _ hz)
  · rw [show (dat0 V c).Φ t = PhiS0 V c t.val (Nat.le_of_lt_succ t.isLt) from rfl, PhiS0_pos V c _ _ hz, PhiA0_eq]
    iintro ⟨⟨HS0, HR⟩, Hg⟩
    isplitl [HS0 HR]
    · isplitl [HS0]
      · iexists _; iexact HS0
      iexact HR
    iexact Hg

theorem hin0 (c : Dev nD) : Pipeline.ΦA spec0 c ⊢ (dat0 V c).Φ 0 := .rfl

theorem hout0 (c : Dev nD) : (dat0 V c).Φ (Fin.last cfg0.N) ⊢ Pipeline.ΦA spec0 c := Phi_out0 V c _

-- A point is in exactly one of three cases: t mod 16 = 0, = 15, neither.
theorem body_obligation0 (c : Dev nD) : BodyObligation (dat0 (F := F) V c) (defs₀ (F := F)) Variants.none () Set.univ := fun t => by
  rw [bigSep_W0, bigSep_W0]
  dsimp only
  simp only [before0_0_of V (dat0 V c) rfl (fun _ => rfl), before0_1_of V (dat0 V c) rfl (fun _ => rfl), before0_2_of V (dat0 V c) rfl (fun _ => rfl), before0_3_of V (dat0 V c) rfl (fun _ => rfl), before0_4_of V (dat0 V c) rfl (fun _ => rfl), before0_5_of V (dat0 V c) rfl (fun _ => rfl)]
  rw [show (dat0 V c).owesAt () t.succ = (dat0 V c).owesAt () t.castSucc from rfl,
    show (dat0 V c).Φ t.succ = iprop(iprop(owns (c : Thread nD τ) scM0_0 fullShare ((outsAt0 V c t.val t.isLt).2.2) ∗ restS0 (F := F) c) ∗ (∃ r, prngReg c r)) from rfl]
  show _ ⊢ wp frame _ Set.univ (bodyAt0 t) _
  by_cases h0 : t.val % 16 = 0
  · have h1 : ¬t.val % 16 = 15 := by omega
    have hc0 := (hcond0_0 t).mpr h0
    have hc1 : ¬cond0_1 (grid0.coords t) := fun h => h1 ((hcond0_1 t).mp h)
    simp only [show idle0 6 (grid0.coords t) = true from idleAt0_6_A t hc0 hc1, show (win0 6).flush t = false from noFlush0_6_A t hc0 hc1,
      show idle0 7 (grid0.coords t) = true from idleAt0_7_A t hc0 hc1, show (win0 7).flush t = false from noFlush0_7_A t hc0 hc1]
    rw [outsAt0_A V c t h0 h1]
    unfold sout0_A_0; dsimp only
    refine (sep_mono_left (Phi_out0 V c _)).trans ?_
    rw [PhiA0_eq]
    iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords t) _ _ _ _ _ _ _ _ _ _ _ _ _ _ _ _ _ _ hc0 hc1 _ _ _ _ _ _).2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    iintro ⟨H0, H1, H2, H3, H4, H5, H6, H7, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iexists _; iexact H7
  have hc0 : ¬cond0_0 (grid0.coords t) := fun h => h0 ((hcond0_0 t).mp h)
  rw [show (dat0 V c).Φ t.castSucc = PhiS0 V c t.val (Nat.le_of_lt t.isLt) from rfl, PhiS0_pos V c _ _ (fun hz => h0 (by rw [hz]))]
  by_cases h1 : t.val % 16 = 15
  · have hc1 := (hcond0_1 t).mpr h1
    simp only [show idle0 6 (grid0.coords t) = false from liveAt0_6_C t hc0 hc1, show idle0 7 (grid0.coords t) = false from liveAt0_7_C t hc0 hc1]
    rw [after0_6, after0_7, outsAt0_C V c t h0 h1]
    unfold out0_C_6 out0_C_7 sout0_C_0; dsimp only
    iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_C c (grid0.coords t) _ _ _ _ _ _ _ _ _ _ _ _ _ _ _ _ _ _ hc0 hc1 _ _ _ _ _ _ _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    iintro ⟨H0, H1, H2, H3, H4, H5, ⟨%e6, H6⟩, ⟨%e7, H7⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover0_C_0 c _ _ _ _ _ _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover0_C_6 c _ _ _ _ _ _ _ _ _ _ _ _ _ _ _ _ _ _ _ _ _ _ _ _ _ _ _ _)
    unfold owns; iexists _; isplitr
    swap; · iexact H7
    ipureintro; exact View.read_writes_of_cover _ _ _ _ _ (cover0_C_7 c _ _ _ _ _ _ _ _ _ _ _ _ _ _ _ _ _ _ _ _ _ _ _ _ _ _ _ _)
  · have hc1 : ¬cond0_1 (grid0.coords t) := fun h => h1 ((hcond0_1 t).mp h)
    simp only [show idle0 6 (grid0.coords t) = true from idleAt0_6_B t hc0 hc1, show (win0 6).flush t = false from noFlush0_6_B t hc0 hc1,
      show idle0 7 (grid0.coords t) = true from idleAt0_7_B t hc0 hc1, show (win0 7).flush t = false from noFlush0_7_B t hc0 hc1]
    rw [outsAt0_B V c t h0 h1]
    unfold sout0_B_0; dsimp only
    iintro ⟨⟨⟨HS0, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_B c (grid0.coords t) _ _ _ _ _ _ _ _ _ _ _ _ _ _ _ _ _ _ hc0 hc1 _ _ _ _ _ _ _).2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    iintro ⟨H0, H1, H2, H3, H4, H5, H6, H7, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iexists _; iexact H7

end Cert.KernelIdeal.Hand

end
-- ==== Proof.KernelIdeal.R1Frame.lean ====
import proofs.«430600_j30915174596644_3_alg».proof.Proof.Gen.KernelIdeal.Launch
import proofs.«430600_j30915174596644_3_alg».proof.Proof.Gen.KernelIdeal.Skeleton
import proofs.«430600_j30915174596644_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rW_S512x64 : Rect S512x64 := Rect.unit (s := S512x64) ![0, 0] S512x64.size inb_S512x64_S512x64_0_0
abbrev rW_S1x4096 : Rect S1x4096 := Rect.unit (s := S1x4096) ![0, 0] S1x4096.size inb_S1x4096_S1x4096_0_0
abbrev rW_S4096x128 : Rect S4096x128 := Rect.unit (s := S4096x128) ![0, 0] S4096x128.size inb_S4096x128_S4096x128_0_0
abbrev rW_S64x64 : Rect S64x64 := Rect.unit (s := S64x64) ![0, 0] S64x64.size inb_S64x64_S64x64_0_0
abbrev rW_S8x64 : Rect S8x64 := Rect.unit (s := S8x64) ![0, 0] S8x64.size inb_S8x64_S8x64_0_0
abbrev rW_S1x8 : Rect S1x8 := Rect.unit (s := S1x8) ![0, 0] S1x8.size inb_S1x8_S1x8_0_0
abbrev rW_S1x64 : Rect S1x64 := Rect.unit (s := S1x64) ![0, 0] S1x64.size inb_S1x64_S1x64_0_0

theorem cover1_10 (p0 : Vec F S512x64 .f32) (y : S512x64.Idx) :
    ∃ pc ∈ ([⟨rW_S512x64, p0⟩] : List (View.Piece (Elt F) S512x64 .f32)), y ∈ pc.1.set :=
  View.cover_of_tiled [⟨rW_S512x64, p0⟩] S512x64.size (by rfl) y

section
variable (c : Dev nD) (arg1 : Memref sig .tc .vmem S512x64 .f32) (arg2 arg3 : Memref sig .tc .vmem S1x4096 .i32) (arg4 : Memref sig .tc .vmem S4096x128 .f32) (arg5 : Memref sig .tc .vmem S64x64 .f32) (arg6 : Memref sig .tc .vmem S8x64 .f32) (arg7 : Memref sig .tc .vmem S1x8 .f32) (arg8 : Memref sig .tc .vmem S1x64 .f32) (arg9 : Memref sig .tc .vmem S64x64 .f32) (arg10 : Memref sig .tc .vmem S1x64 .f32) (arg11 : Memref sig .tc .vmem S512x64 .f32)
  (i : grid1.Coords) (x0 : Vec F S512x64 .f32) (x1 x2 : Vec F S1x4096 .i32) (x3 : Vec F S4096x128 .f32) (x4 : Vec F S64x64 .f32) (x5 : Vec F S8x64 .f32) (x6 : Vec F S1x8 .f32) (x7 : Vec F S1x64 .f32) (x8 : Vec F S64x64 .f32) (x9 : Vec F S1x64 .f32)

def out1_10 : Vec F S512x64 .f32 :=
  View.canon [⟨rW_S512x64, k1_pay1 (k1_pay2 i (View.ld x1 rW_S1x4096) (View.ld x2 rW_S1x4096) (View.ld x3 rW_S4096x128) (View.ld x0 rW_S512x64) (View.ld x4 rW_S64x64) (View.ld x6 rW_S1x8) (View.ld x5 rW_S8x64)) (View.ld x7 rW_S1x64) (View.ld x8 rW_S64x64) (View.ld x9 rW_S1x64)⟩]

def held1 (y : Vec F S512x64 .f32) : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare y)

set_option maxHeartbeats 1000000 in
theorem sound_kernel1 (E : Set ℕ) (harg1 : arg1.IsWhole) (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (K : PUnit → sProp 𝕄) :
    iprop((∃ d, held1 c arg1 arg2 arg3 arg4 arg5 arg6 arg7 arg8 arg9 arg10 arg11 x0 x1 x2 x3 x4 x5 x6 x7 x8 x9 d) ∗ (held1 c arg1 arg2 arg3 arg4 arg5 arg6 arg7 arg8 arg9 arg10 arg11 x0 x1 x2 x3 x4 x5 x6 x7 x8 x9 (out1_10 i x0 x1 x2 x3 x4 x5 x6 x7 x8 x9) -∗ K ⟨⟩))
      ⊢ wp frame (wpE (defs₀ (F := F)) Variants.none c none) E (cc1__node_update_kernel i arg1 harg1 arg2 harg2 arg3 harg3 arg4 harg4 arg5 harg5 arg6 harg6 arg7 harg7 arg8 harg8 arg9 harg9 arg10 harg10 arg11 harg11) K := by
  sl_unfold [cc1__node_update_kernel, k1_part1]
  unfold held1 owns
  iintro ⟨⟨%d10, ⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, -, H10⟩⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  try dsimp only
  exact View.read_writes_eq_canon _ _ _ (cover1_10 _)

end

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => out1_10 (grid1.coords t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
  Φ _ := Pipeline.ΦA spec1 c
  q _ := fullShare
  owed _ := 0

theorem A_eq1 (c : Dev nD) (w : Fin cfg1.W) : (dat1 V c).A w = V c (Pipeline.arrRef spec1 w) := rfl

theorem after1_10 (c : Dev nD) (t : Fin cfg1.N) : (dat1 V c).after 10 t = out1_10 (grid1.coords t) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) := rfl

theorem before1 (c : Dev nD) (t : Fin cfg1.N) : ∀ w : Fin 11, (cfg1.win w).isOut = false → ∀ d, (dat1 V c).before w t d = (dat1 V c).fetched w t d
  | 0, _, d | 1, _, d | 2, _, d | 3, _, d | 4, _, d | 5, _, d | 6, _, d | 7, _, d | 8, _, d | 9, _, d =>
    (dat1 V c).before_in_eq_fetched _ rfl (fun _ => rfl) (fun _ _ _ => rfl) (fun _ => rfl) t d
  | 10, h, _ => absurd h (by decide)
  | ⟨_ + 11, h⟩, _, _ => absurd h (Nat.not_lt.2 (Nat.le_add_left _ _))

set_option maxHeartbeats 1000000 in
theorem body_obligation1 (c : Dev nD) : BodyObligation (dat1 (F := F) V c) (defs₀ (F := F)) Variants.none () Set.univ := fun t => by
  rw [bigSep_W1, bigSep_W1]
  show _ ⊢ wp frame _ _ (bodyAt1 t) fun _ =>
    iprop((dat1 V c).Φ t.castSucc ∗ (dat1 V c).owesAt () t.castSucc ∗ held1 c _ _ _ _ _ _ _ _ _ _ _ _ _ _ _ _ _ _ _ _ _ _)
  dsimp only
  simp (disch := exact rfl) only [before1 V c t]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel1 c _ _ _ _ _ _ _ _ _ _ _ (grid1.coords t) _ _ _ _ _ _ _ _ _ _ Set.univ)
  isplitl [H0 H1 H2 H3 H4 H5 H6 H7 H8 H9 H10]
  · unfold held1; iexists _; iframe
  iintro H; iframe HΦ Ho; iexact H

end Cert.KernelIdeal.Hand

end
-- ==== Proof.KernelIdeal.Run.lean ====
import proofs.«430600_j30915174596644_3_alg».proof.Proof.Gen.KernelIdeal.Regions
import Idealize.ShloMosaic.Lib.Pipeline.RegionsLoop
import Idealize.ShloMosaic.Lib.Pipeline.FrameSuffix
noncomputable section
namespace Cert.KernelIdeal.Hand
open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation)
variable {F : FTy → Type} [FloatOps F]
local notation "𝕄" => MT nD τ sig Unit (Elt F) ℕ (UR sig nD τ) ℕ

structure RegionFacts {cfg : Cfg sig Λ₀} (dat : (c : Dev nD) → Dat τ (Elt F) Unit ℕ (UR sig nD τ) ℕ cfg c) (V : (c : Dev nD) → (b : Ref sig .tc) → Buf (Elt F) ((c : Thread nD τ).loc b)) : Prop where
  A_eq : ∀ c (w : Fin cfg.W), (dat c).A w = V c (Pipeline.arrRef cfg.spec w)
  q_eq : ∀ c (w : Fin cfg.W), (dat c).q w = fullShare
  owed_eq : ∀ c (t : Fin (cfg.N + 1)), (dat c).owed t = 0
  recorded_eq : ∀ c, (dat c).recorded 0 = Set.univ
  body : ∀ c, BodyObligation (dat c) (defs₀ (F := F)) Variants.none () Set.univ
  hin : ∀ c, (Pipeline.ΦA cfg.spec c : sProp 𝕄) ⊢ (dat c).Φ 0
  hout : ∀ c, (dat c).Φ (Fin.last cfg.N) ⊢ (Pipeline.ΦA cfg.spec c : sProp 𝕄)

theorem withArrays_of_not_out {cfg : Cfg sig Λ₀} {c : Dev nD} (dat : Dat τ (Elt F) Unit ℕ (UR sig nD τ) ℕ cfg c) (hinj : Function.Injective (Pipeline.arrRef cfg.spec))
    (V : Valuation τ sig (Elt F)) (hA : ∀ w, dat.A w = V (Proc.devRef .tc (Pipeline.arrRef cfg.spec w))) (b : Ref sig .tc)
    (hb : ∀ w : Fin cfg.W, (cfg.win w).isOut = true → Pipeline.arrRef cfg.spec w ≠ b) :
    Pipeline.withArrays cfg.spec c V (fun w => dat.arrAt w cfg.N) (Proc.devRef .tc b) = V (Proc.devRef .tc b) := by
  by_cases h : ∃ w, Pipeline.arrRef cfg.spec w = b
  · obtain ⟨w, rfl⟩ := h
    exact (Pipeline.withArrays_arr _ hinj c _ _ w).trans
      ((dat.arrAt_in w (Bool.eq_false_iff.mpr fun hw => hb w hw rfl) _).trans (hA w))
  · exact Pipeline.withArrays_of_ne _ c _ _ b fun w e => h ⟨w, e⟩

theorem owesAt_first {cfg : Cfg sig Λ₀} {c : Dev nD} (dat : Dat τ (Elt F) Unit ℕ (UR sig nD τ) ℕ cfg c) (ho : dat.owed 0 = 0) (hr : dat.recorded 0 = Set.univ) :
    (iprop(∃ W, owes (c : Thread nD τ) (0 : CellTallies nD τ sig Unit) W) : sProp 𝕄) ⊢ dat.owesAt () 0 := by
  unfold Pipeline.Dat.owesAt Pipeline.owesWithin
  rw [ho]
  iintro ⟨%W, HO⟩; iexists W; isplitr
  · ipureintro; exact fun x _ => Or.inl (Set.eq_univ_iff_forall.mp hr x)
  iexact HO

theorem owesAt_last {cfg : Cfg sig Λ₀} {c : Dev nD} (dat : Dat τ (Elt F) Unit ℕ (UR sig nD τ) ℕ cfg c) (ho : dat.owed (Fin.last cfg.N) = 0) :
    dat.owesAt () (Fin.last cfg.N) ⊢ (iprop(∃ W, owes (c : Thread nD τ) (0 : CellTallies nD τ sig Unit) W) : sProp 𝕄) := by
  unfold Pipeline.Dat.owesAt Pipeline.owesWithin
  rw [ho]
  iintro ⟨%W, -, HO⟩; iexists W; iexact HO

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op (List.forall_iff_forall_mem.mp hsub op h)) (List.forall_iff_forall_mem.mp hfresh) W R

def reg (pd : (p : Fin 2) → (c : Dev nD) → Dat τ (Elt F) Unit ℕ (UR sig nD τ) ℕ (Pipeline.pin (pcfgs (F := F)) adm p) c) (p : Fin 2)
    (lf : Pipeline.LaunchFacts (nD := nD) (τ := τ) cfgs p) (V : Dev nD → Valuation τ sig (Elt F)) (h : RegionFacts (pd p) fun c b => V c b) :
    Pipeline.RegionSeg (pcfgs (F := F)) adm pd () defs₀ 𝒱₀ L lv p where
  win := lf.win.to₀
  block_pos := lf.block_pos
  stage_whole := lf.stage_whole
  K := PEmpty
  osem k := k.elim
  ho := Pipeline.OwnSemFacts.none _
  hbody c := (h.body c).loose
  hwaits := Pipeline.hwaits_of_owed_zero _ _ _ _ L lv p h.owed_eq
  pre c := iprop(StableHlo.held (c : Thread nD τ) (Pipeline.ucRefs τ sig) (V c) ∗ R c)
  post c := iprop(StableHlo.held (c : Thread nD τ) (Pipeline.ucRefs τ sig)
    (Pipeline.withArrays (cfgs p).spec c (V c) fun w => (pd p c).arrAt w (cfgs p).N) ∗ R c)
  X c := iprop(∃ r, prngReg c r)
  Y c := iprop(∃ r, prngReg c r)
  Z c := Pipeline.unscopedRest (cfgs p).spec c fun b => V c b
  hentry c := by
    rw [Pipeline.ownSems0_none]
    have hsplit := Pipeline.arrays_of_unscopedBufs (pcfgs (F := F)) adm pd lf.win lf.arr_whole c
      ((pd p c).share_full (h.q_eq c)) (fun b => V c b) (h.A_eq c)
    rw [Pipeline.unscopedBufs_held] at hsplit
    iintro ⟨⟨Hub, Hp, HO⟩, -, -⟩
    ihave ⟨Ha, Hrest⟩ := hsplit $$ Hub
    imodintro
    iframe Ha Hp Hrest
    isplitr; · unfold Pipeline.prefHeld; rw [show (Finset.univ : Finset (Fin 0)) = ∅ from rfl, BI.bigSep_empty]; iempintro
    iapply (owesAt_first (pd p c) (h.owed_eq c 0) (h.recorded_eq c))
    iexact HO
  hin c := by
    refine .trans ?_ (h.hin c)
    unfold Pipeline.ΦA
    iintro ⟨Hp, -, Hr⟩
    isplitl [Hr] <;> iassumption
  hout c := by
    rw [Pipeline.ownSems0_none]
    refine (h.hout c).trans ?_
    unfold Pipeline.ΦA
    iintro ⟨Hr, Hp⟩
    iframe; iempintro
  hexit c := by
    have hjoin := Pipeline.unscopedBufs_of_arrays (pcfgs (F := F)) adm
      lf.win lf.arr_whole c pd ((pd p c).share_full (h.q_eq c)) (fun b => V c b)
      (fun b => Pipeline.withArrays (cfgs p).spec c (V c) (fun w => (pd p c).arrAt w (cfgs p).N) b) ((pd p c).arrAt · (cfgs p).N)
      (fun w => Eq.symm (Pipeline.withArrays_arr _ lf.win.arr_inj c _ _ w))
      (fun b hb => Pipeline.withArrays_of_ne _ c _ _ b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; iframe
    isplitl [HY]; · iexact HY
    iapply (owesAt_last (pd p c) (h.owed_eq c _))
    iexact HO

abbrev EndsAt (s : MemSt nD τ sig (Elt F)) (W : Dev nD → Valuation τ sig (Elt F)) : Prop :=
  ∀ c : Dev nD, ∀ b ∈ Pipeline.ucRefs τ sig, s.mem (((c : Thread nD τ)).1, b) = W c b

section Run

variable (m : (ℓ : Loc nD τ sig) → Buf (Elt F) ℓ) (ρ : Dev nD → PrngReg)
variable (dat0 : ((c : Dev nD) → (b : Ref sig .tc) → Buf (Elt F) ((c : Thread nD τ).loc b)) → (c : Dev nD) → Dat τ (Elt F) Unit ℕ (UR sig nD τ) ℕ cfg0 c)
variable (dat1 : ((c : Dev nD) → (b : Ref sig .tc) → Buf (Elt F) ((c : Thread nD τ).loc b)) → (c : Dev nD) → Dat τ (Elt F) Unit ℕ (UR sig nD τ) ℕ cfg1 c)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
abbrev W3 : Dev nD → Valuation τ sig (Elt F) := fun c => StableHlo.after hostOps1 (W2 m ρ dat0 c)
abbrev V3 : (c : Dev nD) → (b : Ref sig .tc) → Buf (Elt F) ((c : Thread nD τ).loc b) := fun c b => W3 m ρ dat0 c b
def W4 (c : Dev nD) : Valuation τ sig (Elt F) :=
  Pipeline.withArrays spec1 c (W3 m ρ dat0 c) fun w => (dat1 (V3 m ρ dat0) c).arrAt w cfg1.N

-- A reference no host operation writes and no kernel call puts out holds at the end what the launch memory holds.
theorem W4_launch (h0 : ∀ V, RegionFacts (dat0 V) V) (h1 : ∀ V, RegionFacts (dat1 V) V) (c : Dev nD) (b : Ref sig .tc) :
    ((∀ w : Fin cfg1.W, (cfg1.win w).isOut = true → Pipeline.arrRef spec1 w ≠ b) ∧ b ∉ hostOps1_W
      ∧ (∀ w : Fin cfg0.W, (cfg0.win w).isOut = true → Pipeline.arrRef spec0 w ≠ b) ∧ b ∉ hostOps0_W) →
    W4 m ρ dat0 dat1 c (Proc.devRef .tc b) = m ((c : Thread nD τ).loc b) := fun ⟨hout1, hw1, hout0, hw0⟩ =>
  ((withArrays_of_not_out _ launch1.win.arr_inj _ ((h1 _).A_eq c) b hout1).trans
    (StableHlo.after_of_writes_sub hostOps1 _ hostOps1_writes hw1)).trans
  ((withArrays_of_not_out _ launch0.win.arr_inj _ ((h0 _).A_eq c) b hout0).trans (V1_of m c b hw0))

def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ dat0) c

abbrev segs (h0 : ∀ V, RegionFacts (dat0 V) V) (h1 : ∀ V, RegionFacts (dat1 V) V) :
    List (Pipeline.Seg (pcfgs (F := F)) adm (pdats m ρ dat0 dat1) () defs₀ 𝒱₀ L lv) :=
  [ .host (hseg hostOps0 hostOps0_sub hostOps0_fresh (W0 m ρ)),
    .region (reg (pdats m ρ dat0 dat1) 0 launch0 (W1 m ρ) (h0 _)),
    .host (hseg hostOps1 hostOps1_sub hostOps1_fresh (W2 m ρ dat0)),
    .region (reg (pdats m ρ dat0 dat1) 1 launch1 (W3 m ρ dat0) (h1 _)) ]

-- Every execution of @main from `m` ends, and a post that follows from the buffers holding the last contents holds of every final memory.
theorem run_post (h0 : ∀ V, RegionFacts (dat0 V) V) (h1 : ∀ V, RegionFacts (dat1 V) V) {Q : PUnit × MemSt nD τ sig (Elt F) → Prop}
    (hQ : ∀ s, EndsAt s (W4 m ρ dat0 dat1) → Q (⟨⟩, s)) :
    θ_run defs (onTc (τ := τ) (main (F := F))) ⟨m, fun _ => 0, ρ⟩ Q :=
  Pipeline.θ_run_regions_kit (pcfgs (F := F)) adm (pdats m ρ dat0 dat1) () cellOf_inj emb₁ defs₀ 𝒱₀ L lv m ρ main (segs m ρ dat0 dat1 h0 h1)
    (fun c Q => by rw [show main (F := F) c = Pipeline.Seg.run (segs m ρ dat0 dat1 h0 h1) from (main_chain c).trans (by chain_rfl)])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ _) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := fun c => iprop(StableHlo.held (c : Thread nD τ) (Pipeline.ucRefs τ sig) (W4 m ρ dat0 dat1 c) ∗ ∃ r, prngReg c r))
    (hch := ⟨fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ dat0 dat1 c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ dat0 dat1 c) s')
      isplitl [Hh] <;> iassumption)
    (hQ := hQ)

theorem read_final {s : MemSt nD τ sig (Elt F)} (h : EndsAt s (W4 m ρ dat0 dat1)) (c : Dev nD) (b : Ref sig .tc) (hb : ¬ (Proc.devRef .tc b : DevRef τ sig).isScoped) :
    s.mem ((c.tc : Thread nD τ).loc b) = W4 m ρ dat0 dat1 c (Proc.devRef .tc b) :=
  h c _ (Finset.mem_filter.mpr ⟨StableHlo.devRef_mem_tcRefs b, hb⟩)

end Run

end Cert.KernelIdeal.Hand

end
-- ==== Proof.KernelIdeal.Main.lean ====
import proofs.«430600_j30915174596644_3_alg».proof.Proof.KernelIdeal.R0Frame
import proofs.«430600_j30915174596644_3_alg».proof.Proof.KernelIdeal.R1Frame
import proofs.«430600_j30915174596644_3_alg».proof.Proof.KernelIdeal.Run
noncomputable section
namespace Cert.KernelIdeal.Hand
open Cert.KernelIdeal Cert.KernelIdeal.Gen
open Idealize.ShloMosaic Idealize.ShloMosaic.TcCoe
open Idealize.SL Idealize.SL.Sem
variable {F : FTy → Type} [FloatOps F]

theorem facts0 (V) : RegionFacts (F := F) (dat0 V) V :=
  ⟨A_eq0 V, fun _ _ => rfl, fun _ _ => rfl, fun _ => rfl, body_obligation0 V, hin0 V, hout0 V⟩
theorem facts1 (V) : RegionFacts (F := F) (dat1 V) V :=
  ⟨A_eq1 V, fun _ _ => rfl, fun _ _ => rfl, fun _ => rfl, body_obligation1 V, fun _ => .rfl, fun _ => .rfl⟩

variable (m : (ℓ : Loc nD τ sig) → Buf (Elt F) ℓ) (ρ : Dev nD → PrngReg)

abbrev endVal (c : Dev nD) : Valuation τ sig (Elt F) := W4 m ρ (fun V c => dat0 V c) (fun V c => dat1 V c) c

theorem kernel_run {Q : PUnit × MemSt nD τ sig (Elt F) → Prop}
    (hQ : ∀ s, EndsAt s (endVal m ρ) → Q (⟨⟩, s)) :
    θ_run defs (onTc (τ := τ) (main (F := F))) ⟨m, fun _ => 0, ρ⟩ Q :=
  run_post m ρ _ _ facts0 facts1 hQ

-- A buffer that no host operation writes and no kernel call puts out ends as launched.
theorem arg_kept {s : MemSt nD τ sig (Elt F)} (h : EndsAt s (endVal m ρ)) (c : Dev nD) (b : Ref sig .tc)
    (hb : ¬ (Proc.devRef .tc b : DevRef τ sig).isScoped ∧ (∀ w : Fin cfg1.W, (cfg1.win w).isOut = true → Pipeline.arrRef spec1 w ≠ b) ∧ b ∉ hostOps1_W
      ∧ (∀ w : Fin cfg0.W, (cfg0.win w).isOut = true → Pipeline.arrRef spec0 w ≠ b) ∧ b ∉ hostOps0_W) :
    s.mem ((c.tc : Thread nD τ).loc b) = m ((c.tc : Thread nD τ).loc b) :=
  (read_final m ρ _ _ h c b hb.1).trans (W4_launch m ρ _ _ facts0 facts1 c b hb.2)

end Cert.KernelIdeal.Hand

end
-- ==== Proof.KernelIdeal.HostRead.lean ====
import proofs.«430600_j30915174596644_3_alg».proof.Proof.Gen.KernelIdeal.Launch
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]

local macro "host_results" : tactic =>
  `(tactic| (simp only [after_cons, after_nil]
             repeat (first
               | rw [nullary_result] | rw [unary_result] | rw [binary_result] | rw [ternary_result]
               | rw [reshape_result] | rw [nary4_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide)
               | (rw [nary_result_ne]; rotate_left; decide))))

def wrapIds (s : IVec S4096 32) : IVec S4096x1 32 :=
  broadcastInDim S4096x1 ![0] bcast_S4096_S4096x1_0
    (select (cmpi .slt s (broadcastInDim S4096 ![] bcast_S_S4096 (constantI S_ 32 0#32)))
      (addi s (broadcastInDim S4096 ![] bcast_S_S4096 (constantI S_ 32 8192#32))) s)

def nodeRows (nodes : FVec F S8192x64 .f32) (s : IVec S4096 32) : FVec F S4096x64 .f32 :=
  Host.gather gather_S8192x64_S4096x1_S4096x64_1_0_n_n_0_1_164 nodes (wrapIds s)

def edgeRows (edges : FVec F S4096x16 .f32) (nodes : FVec F S8192x64 .f32) (glob : FVec F S1x8 .f32)
    (snd rcv : IVec S4096 32) : FVec F S4096x152 .f32 :=
  concatenate S4096x152 1 [⟨S4096x16, edges⟩, ⟨S4096x64, nodeRows nodes snd⟩, ⟨S4096x64, nodeRows nodes rcv⟩,
    ⟨S4096x8, broadcastInDim S4096x8 ![0, 1] bcast_S1x8_S4096x8_0_1 glob⟩]
    concatenates_S4096x16_S4096x64_S4096x64_S4096x8_S4096x152_d1

def projRows (w : FVec F S8264x64 .f32) : FVec F S4096x128 .f32 :=
  concatenate S4096x128 1 [⟨S4096x64, extractStridedSlice S4096x64 ![64, 0] w slices_S8264x64_S4096x64_64_0⟩,
    ⟨S4096x64, extractStridedSlice S4096x64 ![4160, 0] w slices_S8264x64_S4096x64_4160_0⟩]
    concatenates_S4096x64_S4096x64_S4096x128_d1

variable (W : Valuation τ sig (Elt F))

set_option maxHeartbeats 8000000 in
theorem after0_v16 : StableHlo.after (hostOps0 (F := F)) W (Proc.devRef .tc main_v16)
    = truncf .bf16 (edgeRows (W (Proc.devRef .tc main_arg1)) (W (Proc.devRef .tc main_arg0)) (W (Proc.devRef .tc main_arg2))
        (W (Proc.devRef .tc main_arg3)) (W (Proc.devRef .tc main_arg4))) bitsLt_bf16_f32 := by
  host_results
  rfl

theorem after0_v21 : StableHlo.after (hostOps0 (F := F)) W (Proc.devRef .tc main_v21)
    = truncf .bf16 (W (Proc.devRef .tc main_arg5)) bitsLt_bf16_f32 := by
  host_results

theorem after0_v22 : StableHlo.after (hostOps0 (F := F)) W (Proc.devRef .tc main_v22)
    = truncf .bf16 (W (Proc.devRef .tc main_arg7)) bitsLt_bf16_f32 := by
  host_results

theorem after0_v17 : StableHlo.after (hostOps0 (F := F)) W (Proc.devRef .tc main_v17)
    = shapeCast S1x4096 (W (Proc.devRef .tc main_arg6)) shapeCasts_S4096_S1x4096 := by
  host_results
  rfl

theorem after0_v18 : StableHlo.after (hostOps0 (F := F)) W (Proc.devRef .tc main_v18)
    = shapeCast S1x4096 (W (Proc.devRef .tc main_arg8)) shapeCasts_S4096_S1x4096 := by
  host_results
  rfl

theorem after0_v19 : StableHlo.after (hostOps0 (F := F)) W (Proc.devRef .tc main_v19)
    = shapeCast S1x64 (W (Proc.devRef .tc main_arg10)) shapeCasts_S64_S1x64 := by
  host_results
  rfl

theorem after0_v20 : StableHlo.after (hostOps0 (F := F)) W (Proc.devRef .tc main_v20)
    = shapeCast S1x64 (W (Proc.devRef .tc main_arg12)) shapeCasts_S64_S1x64 := by
  host_results
  rfl

theorem after0_v28 : StableHlo.after (hostOps0 (F := F)) W (Proc.devRef .tc main_v28)
    = truncf .bf16 (projRows (W (Proc.devRef .tc main_arg9))) bitsLt_bf16_f32 := by
  host_results
  rfl

theorem after0_v23 : StableHlo.after (hostOps0 (F := F)) W (Proc.devRef .tc main_v23)
    = extractStridedSlice S64x64 ![0, 0] (W (Proc.devRef .tc main_arg9)) slices_S8264x64_S64x64_0_0 := by
  host_results

theorem after0_v26 : StableHlo.after (hostOps0 (F := F)) W (Proc.devRef .tc main_v26)
    = extractStridedSlice S8x64 ![8256, 0] (W (Proc.devRef .tc main_arg9)) slices_S8264x64_S8x64_8256_0 := by
  host_results

theorem after1_v30 : StableHlo.after (hostOps1 (F := F)) W (Proc.devRef .tc main_v30)
    = shapeCast S1x4096 (W (Proc.devRef .tc main_arg3)) shapeCasts_S4096_S1x4096 := by
  host_results
  rfl

theorem after1_v31 : StableHlo.after (hostOps1 (F := F)) W (Proc.devRef .tc main_v31)
    = shapeCast S1x4096 (W (Proc.devRef .tc main_arg4)) shapeCasts_S4096_S1x4096 := by
  host_results
  rfl

end Cert.KernelIdeal.Hand

end
-- ==== Proof.KernelIdeal.ChainRead.lean ====
import proofs.«430600_j30915174596644_3_alg».proof.Proof.KernelIdeal.Run
import proofs.«430600_j30915174596644_3_alg».proof.Proof.KernelIdeal.HostRead
noncomputable section
namespace Cert.KernelIdeal.Hand
open Cert.KernelIdeal Cert.KernelIdeal.Gen
open Idealize.ShloMosaic Idealize.ShloMosaic.TcCoe
open Idealize.SL.Sem
open Idealize.ShloMosaic.Pipeline (Dat)
variable {F : FTy → Type} [FloatOps F]
variable (m : (ℓ : Loc nD τ sig) → Buf (Elt F) ℓ) (ρ : Dev nD → PrngReg)
variable (dat0 : ((c : Dev nD) → (b : Ref sig .tc) → Buf (Elt F) ((c : Thread nD τ).loc b)) → (c : Dev nD) → Dat τ (Elt F) Unit ℕ (UR sig nD τ) ℕ cfg0 c)
variable (dat1 : ((c : Dev nD) → (b : Ref sig .tc) → Buf (Elt F) ((c : Thread nD τ).loc b)) → (c : Dev nD) → Dat τ (Elt F) Unit ℕ (UR sig nD τ) ℕ cfg1 c)

theorem V1_v16 (c : Dev nD) : V1 m ρ c main_v16
    = truncf .bf16 (edgeRows (m ((c : Thread nD τ).loc main_arg1)) (m ((c : Thread nD τ).loc main_arg0))
        (m ((c : Thread nD τ).loc main_arg2)) (m ((c : Thread nD τ).loc main_arg3)) (m ((c : Thread nD τ).loc main_arg4)))
        bitsLt_bf16_f32 :=
  after0_v16 (W0 m ρ c)
theorem V1_v21 (c : Dev nD) : V1 m ρ c main_v21 = truncf .bf16 (m ((c : Thread nD τ).loc main_arg5)) bitsLt_bf16_f32 :=
  after0_v21 (W0 m ρ c)
theorem V1_v17 (c : Dev nD) : V1 m ρ c main_v17 = shapeCast S1x4096 (m ((c : Thread nD τ).loc main_arg6)) shapeCasts_S4096_S1x4096 :=
  after0_v17 (W0 m ρ c)
theorem V1_v22 (c : Dev nD) : V1 m ρ c main_v22 = truncf .bf16 (m ((c : Thread nD τ).loc main_arg7)) bitsLt_bf16_f32 :=
  after0_v22 (W0 m ρ c)
theorem V1_v18 (c : Dev nD) : V1 m ρ c main_v18 = shapeCast S1x4096 (m ((c : Thread nD τ).loc main_arg8)) shapeCasts_S4096_S1x4096 :=
  after0_v18 (W0 m ρ c)
theorem V1_v28 (c : Dev nD) : V1 m ρ c main_v28 = truncf .bf16 (projRows (m ((c : Thread nD τ).loc main_arg9))) bitsLt_bf16_f32 :=
  after0_v28 (W0 m ρ c)

-- A buffer the second host stretch does not write and that is no array of the first region enters the second region as the first host stretch left it.
theorem V3_bypass (c : Dev nD) (b : Ref sig .tc) {x : Buf (Elt F) ((c : Thread nD τ).loc b)}
    (hb : b ∉ hostOps1_W ∧ ∀ w, Pipeline.arrRef spec0 w ≠ b) (hx : W1 m ρ c (Proc.devRef .tc b) = x) : V3 m ρ dat0 c b = x :=
  (StableHlo.after_of_writes_sub hostOps1 _ hostOps1_writes hb.1).trans ((Pipeline.withArrays_of_ne spec0 c _ _ b hb.2).trans hx)

theorem V3_arg0 (c : Dev nD) : V3 m ρ dat0 c main_arg0 = m ((c : Thread nD τ).loc main_arg0) :=
  V3_bypass m ρ dat0 c _ (by decide) (V1_of m c _ (by decide))
theorem W2_arg3 (c : Dev nD) : W2 m ρ dat0 c (Proc.devRef .tc main_arg3) = m ((c : Thread nD τ).loc main_arg3) :=
  (Pipeline.withArrays_of_ne spec0 c _ _ main_arg3 (by decide)).trans (V1_of m c _ (by decide))
theorem W2_arg4 (c : Dev nD) : W2 m ρ dat0 c (Proc.devRef .tc main_arg4) = m ((c : Thread nD τ).loc main_arg4) :=
  (Pipeline.withArrays_of_ne spec0 c _ _ main_arg4 (by decide)).trans (V1_of m c _ (by decide))
theorem V3_v30 (c : Dev nD) : V3 m ρ dat0 c main_v30 = shapeCast S1x4096 (m ((c : Thread nD τ).loc main_arg3)) shapeCasts_S4096_S1x4096 :=
  W2_arg3 m ρ dat0 c ▸ after1_v30 (W2 m ρ dat0 c)
theorem V3_v31 (c : Dev nD) : V3 m ρ dat0 c main_v31 = shapeCast S1x4096 (m ((c : Thread nD τ).loc main_arg4)) shapeCasts_S4096_S1x4096 :=
  W2_arg4 m ρ dat0 c ▸ after1_v31 (W2 m ρ dat0 c)
theorem V3_v29_1 (c : Dev nD) : V3 m ρ dat0 c main_v29_1 = (dat0 (V1 m ρ) c).arrAt 7 cfg0.N :=
  (StableHlo.after_of_writes_sub hostOps1 _ hostOps1_writes (by decide)).trans (Pipeline.withArrays_arr spec0 launch0.win.arr_inj c _ _ 7)
theorem V3_v23 (c : Dev nD) : V3 m ρ dat0 c main_v23
    = extractStridedSlice S64x64 ![0, 0] (m ((c : Thread nD τ).loc main_arg9)) slices_S8264x64_S64x64_0_0 :=
  V3_bypass m ρ dat0 c _ (by decide) (after0_v23 (W0 m ρ c))
theorem V3_v26 (c : Dev nD) : V3 m ρ dat0 c main_v26
    = extractStridedSlice S8x64 ![8256, 0] (m ((c : Thread nD τ).loc main_arg9)) slices_S8264x64_S8x64_8256_0 :=
  V3_bypass m ρ dat0 c _ (by decide) (after0_v26 (W0 m ρ c))
theorem V3_arg2 (c : Dev nD) : V3 m ρ dat0 c main_arg2 = m ((c : Thread nD τ).loc main_arg2) :=
  V3_bypass m ρ dat0 c _ (by decide) (V1_of m c _ (by decide))
theorem V3_v19 (c : Dev nD) : V3 m ρ dat0 c main_v19 = shapeCast S1x64 (m ((c : Thread nD τ).loc main_arg10)) shapeCasts_S64_S1x64 :=
  V3_bypass m ρ dat0 c _ (by decide) (after0_v19 (W0 m ρ c))
theorem V3_arg11 (c : Dev nD) : V3 m ρ dat0 c main_arg11 = m ((c : Thread nD τ).loc main_arg11) :=
  V3_bypass m ρ dat0 c _ (by decide) (V1_of m c _ (by decide))
theorem V3_v20 (c : Dev nD) : V3 m ρ dat0 c main_v20 = shapeCast S1x64 (m ((c : Thread nD τ).loc main_arg12)) shapeCasts_S64_S1x64 :=
  V3_bypass m ρ dat0 c _ (by decide) (after0_v20 (W0 m ρ c))

theorem W4_v29_0 (c : Dev nD) : W4 m ρ dat0 dat1 c (Proc.devRef .tc main_v29_0) = (dat0 (V1 m ρ) c).arrAt 6 cfg0.N :=
  (Pipeline.withArrays_of_ne spec1 c _ _ main_v29_0 (by decide)).trans
    ((StableHlo.after_of_writes_sub hostOps1 _ hostOps1_writes (by decide)).trans (Pipeline.withArrays_arr spec0 launch0.win.arr_inj c _ _ 6))
theorem W4_v32 (c : Dev nD) : W4 m ρ dat0 dat1 c (Proc.devRef .tc main_v32) = (dat1 (V3 m ρ dat0) c).arrAt 10 cfg1.N :=
  Pipeline.withArrays_arr spec1 launch1.win.arr_inj c _ _ 10

end Cert.KernelIdeal.Hand

end
-- ==== Proof.Spec.lean ====
import Mathlib.Data.EReal.Basic
import Mathlib.Data.EReal.Operations
import Mathlib.Algebra.BigOperators.Fin
import Mathlib.Algebra.BigOperators.Ring.Finset
import Mathlib.Algebra.Order.BigOperators.Group.Finset

noncomputable section

namespace GraphNet

open Finset

-- A factor goes inside a finite sum of non-negative extended reals, whatever the factor.
theorem sum_mul_of_nonneg {ι : Type*} (s : Finset ι) (a : ι → EReal) (ha : ∀ i ∈ s, 0 ≤ a i) (w : EReal) :
    (∑ i ∈ s, a i) * w = ∑ i ∈ s, a i * w := by
  classical
  induction s using Finset.induction_on with
  | empty => simp
  | insert i s hi ih =>
    have hs : ∀ k ∈ s, 0 ≤ a k := fun k hk => ha k (Finset.mem_insert_of_mem hk)
    rw [Finset.sum_insert hi, Finset.sum_insert hi,
      EReal.right_distrib_of_nonneg (ha i (Finset.mem_insert_self _ _)) (Finset.sum_nonneg hs), ih hs]

theorem sum_indicator_mul {ι : Type*} [Fintype ι] (p : ι → Prop) [DecidablePred p] (x : ι → EReal) :
    (∑ e : ι, (if p e then (1 : EReal) else 0) * x e) = ∑ e ∈ univ.filter p, x e := by
  simp only [Finset.sum_filter, ite_mul, one_mul, zero_mul]

theorem sum_four_ranges (g : Fin 8264 → EReal) :
    (∑ j : Fin 8264, g j) =
      (((∑ a : Fin 64, g ⟨a.val, by omega⟩) + ∑ j : Fin 4096, g ⟨64 + j.val, by omega⟩)
        + ∑ j : Fin 4096, g ⟨4160 + j.val, by omega⟩) + ∑ q : Fin 8, g ⟨8256 + q.val, by omega⟩ := by
  rw [Fin.sum_univ_add (a := 8256) (b := 8) g, Fin.sum_univ_add (a := 4160) (b := 4096) fun i => g (Fin.castAdd 8 i),
    Fin.sum_univ_add (a := 64) (b := 4096) fun i => g (Fin.castAdd 8 (Fin.castAdd 4096 i))]
  rfl

section Edge

variable (edges : Fin 4096 → Fin 16 → EReal) (sent recv : Fin 4096 → Fin 64 → EReal) (glob : Fin 8 → EReal)

def edgeIn (e : Fin 4096) (a : Fin 152) : EReal :=
  if h16 : a.val < 16 then edges e ⟨a.val, h16⟩
  else if h80 : a.val < 80 then sent e ⟨a.val - 16, by omega⟩
  else if h144 : a.val < 144 then recv e ⟨a.val - 80, by omega⟩
  else glob ⟨a.val - 144, by have := a.isLt; omega⟩

variable (X : Fin 4096 → Fin 152 → EReal) (W1 : Fin 152 → Fin 4096 → EReal) (b1 : Fin 4096 → EReal)
  (W2 : Fin 4096 → Fin 4096 → EReal) (b2 : Fin 4096 → EReal)

def hidden (e k : Fin 4096) : EReal := max ((∑ a : Fin 152, X e a * W1 a k) + b1 k) 0

def newEdges (e j : Fin 4096) : EReal := max ((∑ k : Fin 4096, hidden X W1 b1 e k * W2 k j) + b2 j) 0

theorem newEdges_nonneg (e j : Fin 4096) : 0 ≤ newEdges X W1 b1 W2 b2 e j := le_max_right _ _

end Edge

section Node

variable (NE : Fin 4096 → Fin 4096 → EReal) (S R : Fin 8192 → Fin 4096 → Prop) [∀ n e, Decidable (S n e)]
  [∀ n e, Decidable (R n e)] (nodes : Fin 8192 → Fin 64 → EReal) (W : Fin 8264 → Fin 64 → EReal) (glob : Fin 8 → EReal)

def wOwn (a : Fin 64) (d : Fin 64) : EReal := W ⟨a.val, by omega⟩ d
def wSent (j : Fin 4096) (d : Fin 64) : EReal := W ⟨64 + j.val, by omega⟩ d
def wRecv (j : Fin 4096) (d : Fin 64) : EReal := W ⟨4160 + j.val, by omega⟩ d
def wGlob (q : Fin 8) (d : Fin 64) : EReal := W ⟨8256 + q.val, by omega⟩ d

def projSent (e : Fin 4096) (d : Fin 64) : EReal := ∑ j : Fin 4096, NE e j * wSent W j d
def projRecv (e : Fin 4096) (d : Fin 64) : EReal := ∑ j : Fin 4096, NE e j * wRecv W j d

def preProj (n : Fin 8192) (d : Fin 64) : EReal :=
  (((∑ e : Fin 4096, (if S n e then (1 : EReal) else 0) * projSent NE W e d)
      + ∑ e : Fin 4096, (if R n e then (1 : EReal) else 0) * projRecv NE W e d)
    + ∑ a : Fin 64, nodes n a * wOwn W a d)
  + ∑ q : Fin 8, glob q * wGlob W q d

def nodeIn (n : Fin 8192) (j : Fin 8264) : EReal :=
  if h64 : j.val < 64 then nodes n ⟨j.val, h64⟩
  else if h4160 : j.val < 4160 then 0 + ∑ e ∈ univ.filter (fun e => S n e), NE e ⟨j.val - 64, by omega⟩
  else if h8256 : j.val < 8256 then 0 + ∑ e ∈ univ.filter (fun e => R n e), NE e ⟨j.val - 4160, by omega⟩
  else glob ⟨j.val - 8256, by have := j.isLt; omega⟩

def preAgg (n : Fin 8192) (d : Fin 64) : EReal := ∑ j : Fin 8264, nodeIn NE S R nodes glob n j * W j d

theorem nodeIn_own (n : Fin 8192) (a : Fin 64) :
    nodeIn NE S R nodes glob n ⟨a.val, by omega⟩ = nodes n a :=
  dif_pos a.isLt

theorem nodeIn_sent (n : Fin 8192) (j : Fin 4096) :
    nodeIn NE S R nodes glob n ⟨64 + j.val, by omega⟩ = ∑ e ∈ univ.filter (fun e => S n e), NE e j := by
  have hj := j.isLt
  unfold nodeIn
  rw [dif_neg (by simp), dif_pos (by simp only []; omega), zero_add]
  simp only [Nat.add_sub_cancel_left]

theorem nodeIn_recv (n : Fin 8192) (j : Fin 4096) :
    nodeIn NE S R nodes glob n ⟨4160 + j.val, by omega⟩ = ∑ e ∈ univ.filter (fun e => R n e), NE e j := by
  have hj := j.isLt
  unfold nodeIn
  rw [dif_neg (by simp only []; omega), dif_neg (by simp), dif_pos (by simp only []; omega), zero_add]
  simp only [Nat.add_sub_cancel_left]

theorem nodeIn_glob (n : Fin 8192) (q : Fin 8) :
    nodeIn NE S R nodes glob n ⟨8256 + q.val, by omega⟩ = glob q := by
  have hq := q.isLt
  unfold nodeIn
  rw [dif_neg (by simp only []; omega), dif_neg (by simp only []; omega), dif_neg (by simp)]
  simp only [Nat.add_sub_cancel_left]

-- Per-node sums of non-negative features times weights: a one-hot row times the features' products with the weights.
theorem part (hNE : ∀ e j, 0 ≤ NE e j) (T : Fin 4096 → Prop) [DecidablePred T] (w : Fin 4096 → EReal) :
    (∑ j : Fin 4096, (∑ e ∈ univ.filter T, NE e j) * w j)
      = ∑ e : Fin 4096, (if T e then (1 : EReal) else 0) * ∑ j : Fin 4096, NE e j * w j := by
  rw [sum_indicator_mul, Finset.sum_comm]
  exact Finset.sum_congr rfl fun j _ => sum_mul_of_nonneg _ _ (fun e _ => hNE e j) _

-- Summing first and multiplying first agree when no new edge feature is negative.
theorem preProj_eq_preAgg (hNE : ∀ e j, 0 ≤ NE e j) (n : Fin 8192) (d : Fin 64) :
    preProj NE S R nodes W glob n d = preAgg NE S R nodes W glob n d := by
  unfold preProj preAgg projSent projRecv
  rw [sum_four_ranges, ← part NE hNE (S n ·) (wSent W · d), ← part NE hNE (R n ·) (wRecv W · d)]
  simp only [nodeIn_own, nodeIn_sent, nodeIn_recv, nodeIn_glob]
  unfold wOwn wSent wRecv wGlob
  ac_rfl

end Node

def newNodes (pre : Fin 8192 → Fin 64 → EReal) (nb1 : Fin 64 → EReal) (W' : Fin 64 → Fin 64 → EReal) (nb2 : Fin 64 → EReal)
    (n : Fin 8192) (d : Fin 64) : EReal :=
  max ((∑ a : Fin 64, max (pre n a + nb1 a) 0 * W' a d) + nb2 d) 0

theorem sum_range_mul_blocks (g : ℕ → EReal) (n m : ℕ) :
    (∑ i ∈ Finset.range n, ∑ j ∈ Finset.range m, g (i * m + j)) = ∑ k ∈ Finset.range (n * m), g k := by
  induction n with
  | zero => simp
  | succ n ih => rw [Finset.sum_range_succ, ih, Nat.succ_mul, Finset.sum_range_add]

-- A sum of 4096 terms taken as 16 blocks of 256.
theorem sum_range_blocks (f : Fin 4096 → EReal) :
    (∑ kt ∈ Finset.range 16, ∑ k' : Fin 256,
      (if h : kt * 256 + k'.val < 4096 then f ⟨kt * 256 + k'.val, h⟩ else 0)) = ∑ k : Fin 4096, f k := by
  have hg : (∑ k ∈ Finset.range 4096, if h : k < 4096 then f ⟨k, h⟩ else 0) = ∑ k : Fin 4096, f k := by
    rw [← Fin.sum_univ_eq_sum_range]
    exact Finset.sum_congr rfl fun k _ => dif_pos k.isLt
  rw [← hg, ← sum_range_mul_blocks _ 16 256]
  exact Finset.sum_congr rfl fun kt _ => Fin.sum_univ_eq_sum_range (fun j => if h : kt * 256 + j < 4096 then f ⟨_, h⟩ else 0) 256

end GraphNet

end
-- ==== Proof.LibPlainDot.lean ====
import Idealize.ShloMosaic.Lib.ValueIdx
import Idealize.ShloMosaic.Lib.Pipeline.Value
import Idealize.ShloMosaic.PureOps.Ideal.Laws

noncomputable section

namespace PlainDot

open Idealize.ShloMosaic Idealize.ShloMosaic.ValueIdx

variable {M K N : Nat} {φ₁ φ₂ : FTy}

structure IsPlain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable (d : DotDims ⟨2, ![M, K]⟩ ⟨2, ![K, N]⟩ ⟨2, ![M, N]⟩) (hd : IsPlain d)

include hd

theorem contr_rank : d.contr.rank = 1 := by rw [d.rank_contr, hd.lc]; rfl

theorem contr_size : d.contr.size ⟨0, by rw [contr_rank d hd]; exact Nat.one_pos⟩ = K := by
  rw [d.size_contr 0 (by rw [hd.lc]; exact Nat.one_pos)]
  simp [hd.lc]

-- A kept axis reads the result index, the contracted axis the contraction coordinate.
theorem lhsIdx_eq (r : Fin M) (c : Fin N) (k : Fin K) :
    d.lhsIdx (ix2 r c) ((contrEquiv1 d K (contr_rank d hd) (contr_size d hd)).symm k) = ix2 r k := by
  funext a
  apply Fin.ext
  match a with
  | ⟨0, _⟩ =>
    show (d.lhsIdx (ix2 r c) _ (0 : Fin 2)).val = r.val
    unfold DotDims.lhsIdx
    rw [dif_neg (by rw [hd.lb]; exact List.not_mem_nil), dif_pos (by rw [hd.ln]; exact List.mem_singleton.mpr rfl)]
    simp only [Fin.val_cast]
    have key : ∀ (p : Nat) (hp : p < 2), p = 0 → ((ix2 r c : (⟨2, ![M, N]⟩ : Shape).Idx) ⟨p, hp⟩).val = r.val :=
      fun p hp h => by subst h; rfl
    exact key _ _ (by simp [hd.lb, hd.ln])
  | ⟨1, _⟩ =>
    exact (d.lhsIdx_val_of_single hd.lc _ _).trans (contrEquiv1_symm_val d K (contr_rank d hd) (contr_size d hd) k)

theorem rhsIdx_eq (r : Fin M) (c : Fin N) (k : Fin K) :
    d.rhsIdx (ix2 r c) ((contrEquiv1 d K (contr_rank d hd) (contr_size d hd)).symm k) = ix2 k c := by
  funext a
  apply Fin.ext
  match a with
  | ⟨0, _⟩ =>
    exact (d.rhsIdx_val_of_single hd.rc _ _).trans (contrEquiv1_symm_val d K (contr_rank d hd) (contr_size d hd) k)
  | ⟨1, _⟩ =>
    show (d.rhsIdx (ix2 r c) _ (1 : Fin 2)).val = c.val
    unfold DotDims.rhsIdx
    rw [dif_neg (by rw [hd.rb]; exact List.not_mem_nil), dif_pos (by rw [hd.rn]; exact List.mem_singleton.mpr rfl)]
    simp only [Fin.val_cast]
    have key : ∀ (p : Nat) (hp : p < 2), p = 1 → ((ix2 r c : (⟨2, ![M, N]⟩ : Shape).Idx) ⟨p, hp⟩).val = c.val :=
      fun p hp h => by subst h; rfl
    exact key _ _ (by simp [hd.lb, hd.ln, hd.rn])

-- Entry (r, c) of a product into a zero accumulator is the sum over k of A[r, k] * B[k, c].
theorem matmul_zero_apply (prec : Option ContractPrecision) (A : FVec Ideal ⟨2, ![M, K]⟩ φ₁) (B : FVec Ideal ⟨2, ![K, N]⟩ φ₂)
    (r : Fin M) (c : Fin N) :
    FloatOps.matmul d prec A B (constant ⟨2, ![M, N]⟩ .f32 0x00000000#32) (ix2 r c) = ∑ k : Fin K, A (ix2 r k) * B (ix2 k c) := by
  rw [Ideal.matmul_constant_zero_apply, ← Equiv.sum_comp (contrEquiv1 d K (contr_rank d hd) (contr_size d hd)).symm]
  exact Finset.sum_congr rfl fun k _ => by rw [lhsIdx_eq d hd r c k, rhsIdx_eq d hd r c k]

end PlainDot

namespace PlainCat

open Idealize.ShloMosaic Idealize.ShloMosaic.ValueIdx

-- Matrices side by side: column `pre + b` of the whole is column `b` of the piece that begins at column `pre`.
theorem cols_apply {α : Type} {R C C₁ : Nat} (xs : List ((s : Shape) × (s.Idx → α)))
    (h : Shape.Concatenates (xs.map (·.1)) ⟨2, ![R, C]⟩ 1) (k : Nat) (hk : k < xs.length)
    (x₁ : (⟨2, ![R, C₁]⟩ : Shape).Idx → α) (hxk : xs[k] = ⟨_, x₁⟩) (pre : Nat)
    (hpre : (((xs.take k).map (·.1)).map fun s =>
      if h : s.rank = (⟨2, ![R, C]⟩ : Shape).rank then s.size ((1 : Fin (⟨2, ![R, C]⟩ : Shape).rank).cast h.symm) else 0).sum = pre)
    (r : Fin R) (a : Fin C) (b : Fin C₁) (hb : pre + b.val = a.val) :
    concatenate ⟨2, ![R, C]⟩ 1 xs h (ix2 r a) = x₁ (ix2 r b) :=
  concatenate_apply_piece 1 xs h (ix2 r a) k hk _ x₁ hxk rfl pre hpre (ix2 r b)
    (fun c hc => by match c with | ⟨0, _⟩ => rfl | ⟨1, _⟩ => exact absurd (Fin.ext rfl) hc) hb

end PlainCat

end
-- ==== Proof.KernelIdeal.HostIdx.lean ====
import proofs.«430600_j30915174596644_3_alg».proof.Proof.KernelIdeal.HostRead
import proofs.«430600_j30915174596644_3_alg».proof.Proof.Spec
import proofs.«430600_j30915174596644_3_alg».proof.Proof.LibPlainDot
import Idealize.ShloMosaic.Lib.ValueIdx
import Idealize.ShloMosaic.Lib.Pipeline.Value
import Idealize.ShloMosaic.Lib.ValueLayout

noncomputable section

namespace Cert.KernelIdeal.HandValue

open Cert.KernelIdeal Cert.KernelIdeal.Gen Cert.KernelIdeal.Hand
open Idealize.ShloMosaic Idealize.ShloMosaic.ValueIdx

-- The two halves laid side by side are rows 64.. and rows 4160.. of the weight matrix.
theorem projRows_lo (w : FVec Ideal S8264x64 .f32) (j : Fin 4096) (a : Fin 64) :
    projRows w (ix2 j (⟨a.val, Nat.lt_of_lt_of_le a.isLt (by decide)⟩ : Fin 128)) = w (ix2 (⟨64 + j.val, by omega⟩ : Fin 8264) a) :=
  Eq.trans (PlainCat.cols_apply _ _ 0 (by simp) _ rfl 0 rfl j _ a (Nat.zero_add _)) (slice2_axis0_apply 64 w _ j a _ rfl)

theorem projRows_hi (w : FVec Ideal S8264x64 .f32) (j : Fin 4096) (a : Fin 64) :
    projRows w (ix2 j (⟨64 + a.val, by have := a.isLt; omega⟩ : Fin 128)) = w (ix2 (⟨4160 + j.val, by omega⟩ : Fin 8264) a) :=
  Eq.trans (PlainCat.cols_apply _ _ 1 (by simp) _ rfl 64 rfl j _ a rfl) (slice2_axis0_apply 4160 w _ j a _ rfl)

-- Every row of the globals spread over the edges is the globals' one row.
theorem globBcast_apply (glob : FVec Ideal S1x8 .f32) (e : Fin 4096) (q : Fin 8) :
    broadcastInDim S4096x8 ![0, 1] bcast_S1x8_S4096x8_0_1 glob (ix2 e q) = glob (ix2 (0 : Fin 1) q) :=
  broadcastInDim_apply _ bcast_S1x8_S4096x8_0_1 glob (ix2 e q) (ix2 (0 : Fin 1) q) fun a => by
    match a with
    | ⟨0, _⟩ => show (0 : Nat) = if (1 : Nat) = 1 then 0 else e.val; rw [if_pos rfl]
    | ⟨1, _⟩ => show q.val = if (8 : Nat) = 1 then 0 else q.val; rw [if_neg (by decide)]

-- The edge-input rows: each entry comes from the piece its column falls in.
theorem edgeRows_apply (edges : FVec Ideal S4096x16 .f32) (nodes : FVec Ideal S8192x64 .f32) (glob : FVec Ideal S1x8 .f32)
    (snd rcv : IVec S4096 32) (e : Fin 4096) (a : Fin 152) :
    edgeRows edges nodes glob snd rcv (ix2 e a)
      = GraphNet.edgeIn (fun e a => edges (ix2 e a)) (fun e a => nodeRows nodes snd (ix2 e a))
          (fun e a => nodeRows nodes rcv (ix2 e a)) (fun q => glob (ix2 (0 : Fin 1) q)) e a := by
  have ha := a.isLt
  unfold edgeRows GraphNet.edgeIn
  by_cases h16 : a.val < 16
  · rw [dif_pos h16]
    exact PlainCat.cols_apply _ _ 0 (by simp) edges rfl 0 rfl e a ⟨a.val, h16⟩ (Nat.zero_add _)
  by_cases h80 : a.val < 80
  · rw [dif_neg h16, dif_pos h80]
    exact PlainCat.cols_apply _ _ 1 (by simp) (nodeRows nodes snd) rfl 16 rfl e a ⟨a.val - 16, by omega⟩
      (by show 16 + (a.val - 16) = a.val; omega)
  by_cases h144 : a.val < 144
  · rw [dif_neg h16, dif_neg h80, dif_pos h144]
    exact PlainCat.cols_apply _ _ 2 (by simp) (nodeRows nodes rcv) rfl 80 rfl e a ⟨a.val - 80, by omega⟩
      (by show 80 + (a.val - 80) = a.val; omega)
  rw [dif_neg h16, dif_neg h80, dif_neg h144]
  exact (PlainCat.cols_apply _ _ 3 (by simp) _ rfl 144 rfl e a ⟨a.val - 144, by omega⟩
    (by show 144 + (a.val - 144) = a.val; omega)).trans (globBcast_apply glob e _)

-- A 32-bit word is the word of a node number below 8192 exactly when it reads, signed, as that number.
theorem word_eq_iff (w : BitVec 32) (n : Fin 8192) : w = BitVec.ofNat 32 n.val ↔ w.toInt = (n.val : ℤ) := by
  have hn := n.isLt
  have hpow : (2 : ℕ) ^ 32 = 4294967296 := by decide
  have hto : (BitVec.ofNat 32 n.val).toInt = (n.val : ℤ) := by
    rw [BitVec.toInt_eq_toNat_cond, BitVec.toNat_ofNat, Nat.mod_eq_of_lt (by omega), if_pos (by omega)]
  exact ⟨fun h => h ▸ hto, fun h => BitVec.eq_of_toInt_eq (h.trans hto.symm)⟩

end Cert.KernelIdeal.HandValue

end
-- ==== Proof.KernelIdeal.R0Cases.lean ====
import proofs.«430600_j30915174596644_3_alg».proof.Proof.KernelIdeal.R0Frame
import Idealize.ShloMosaic.Lib.Pipeline.Value
import Idealize.ShloMosaic.Lib.Tactic

noncomputable section

namespace Cert.KernelIdeal.HandValue

open Cert.KernelIdeal Cert.KernelIdeal.Gen Cert.KernelIdeal.Hand
open Idealize.ShloMosaic Idealize.ShloMosaic.TcCoe Idealize.ShloMosaic.Tactic Idealize.SL.Sem

variable {F : FTy → Type} [FloatOps F]

theorem hz0 : (![0, 0] : Fin 2 → Nat) = fun _ => 0 := funext fun a => by fin_cases a <;> rfl

theorem readAt_unread0 {S : Shape} {e : EltTy} {m : Memref sig .tc .vmem S e} (hm : m.IsWhole) {off : Fin S.rank → ℕ} (h : off = fun _ => 0)
    (inb : ∀ a, off a + S.size a ≤ S.size a) (X : S.Idx → Elt F e) :
    m.view.readAt (Elt F) (Rect.unit off S.size inb) (hm.unread X) = X := by
  rw [View.readAt_eq_ld, hm.read_unread, View.ld_unit_zero h]

variable (c : Dev nD) (i : grid0.Coords) (arg2 : Memref sig .tc .vmem S512x152 .bf16) (harg2 : arg2.IsWhole) (arg3 : Memref sig .tc .vmem S152x256 .bf16) (harg3 : arg3.IsWhole) (arg4 : Memref sig .tc .vmem S1x256 .f32) (harg4 : arg4.IsWhole) (arg5 : Memref sig .tc .vmem S256x4096 .bf16) (harg5 : arg5.IsWhole) (arg6 : Memref sig .tc .vmem S1x4096 .f32) (harg6 : arg6.IsWhole) (arg7 : Memref sig .tc .vmem S4096x128 .bf16) (harg7 : arg7.IsWhole) (arg8 : Memref sig .tc .vmem S512x4096 .f32) (harg8 : arg8.IsWhole) (arg9 : Memref sig .tc .vmem S512x128 .f32) (harg9 : arg9.IsWhole) (arg10 : Memref sig .tc .vmem S512x4096 .f32) (harg10 : arg10.IsWhole)

section
variable (hc0 : cond0_0 i) (hc1 : ¬cond0_1 i) (x0 : Vec F S512x152 .bf16) (x1 : Vec F S152x256 .bf16) (x2 : Vec F S1x256 .f32) (x3 : Vec F S256x4096 .bf16) (x4 : Vec F S1x4096 .f32) (x5 : Vec F S4096x128 .bf16)

theorem sout0_A_0_eq : sout0_A_0 c i arg2 harg2 arg3 harg3 arg4 harg4 arg5 harg5 arg6 harg6 arg7 harg7 arg8 harg8 arg9 harg9 arg10 harg10 hc0 hc1 x0 x1 x2 x3 x4 x5 = k0_pay2 x0 x1 x2 (k0_pay1 (F := F)) x3 := by
  unfold sout0_A_0
  rw [View.read_writes_eq_canon _ _ _ (scover0_A_0 _ _ _ _ _ _ _ _ _ _ _ _ _ _ _ _ _ _ _ _ _ _ _ _ _ _ _ _)]
  unfold kernelRun0_A
  dsimp only
  try sl_unfold_words
  rw [View.canon_cons_unit_zero (S := S512x4096) hz0, View.readCov_unit_zero (S := S512x4096) _ hz0]
  simp only [readAt_unread0 harg2 hz0, readAt_unread0 harg3 hz0, readAt_unread0 harg4 hz0, readAt_unread0 harg5 hz0, readAt_unread0 harg6 hz0, readAt_unread0 harg7 hz0, readAt_unread0 harg10 hz0]

end

section
variable (hc0 : ¬cond0_0 i) (hc1 : ¬cond0_1 i) (x0 : Vec F S512x152 .bf16) (x1 : Vec F S152x256 .bf16) (x2 : Vec F S1x256 .f32) (x3 : Vec F S256x4096 .bf16) (x4 : Vec F S1x4096 .f32) (x5 : Vec F S4096x128 .bf16) (xs0 : Vec F S512x4096 .f32)

theorem sout0_B_0_eq : sout0_B_0 c i arg2 harg2 arg3 harg3 arg4 harg4 arg5 harg5 arg6 harg6 arg7 harg7 arg8 harg8 arg9 harg9 arg10 harg10 hc0 hc1 x0 x1 x2 x3 x4 x5 xs0 = k0_pay2 x0 x1 x2 xs0 x3 := by
  unfold sout0_B_0
  rw [View.read_writes_eq_canon _ _ _ (scover0_B_0 _ _ _ _ _ _ _ _ _ _ _ _ _ _ _ _ _ _ _ _ _ _ _ _ _ _ _ _ _)]
  unfold kernelRun0_B
  dsimp only
  try sl_unfold_words
  rw [View.canon_unit_zero hz0]
  simp only [readAt_unread0 harg2 hz0, readAt_unread0 harg3 hz0, readAt_unread0 harg4 hz0, readAt_unread0 harg5 hz0, readAt_unread0 harg6 hz0, readAt_unread0 harg7 hz0, readAt_unread0 harg10 hz0]

end

section
variable (hc0 : ¬cond0_0 i) (hc1 : cond0_1 i) (x0 : Vec F S512x152 .bf16) (x1 : Vec F S152x256 .bf16) (x2 : Vec F S1x256 .f32) (x3 : Vec F S256x4096 .bf16) (x4 : Vec F S1x4096 .f32) (x5 : Vec F S4096x128 .bf16) (xs0 : Vec F S512x4096 .f32)

theorem sout0_C_0_eq : sout0_C_0 c i arg2 harg2 arg3 harg3 arg4 harg4 arg5 harg5 arg6 harg6 arg7 harg7 arg8 harg8 arg9 harg9 arg10 harg10 hc0 hc1 x0 x1 x2 x3 x4 x5 xs0 = k0_pay2 x0 x1 x2 xs0 x3 := by
  unfold sout0_C_0
  rw [View.read_writes_eq_canon _ _ _ (scover0_C_0 _ _ _ _ _ _ _ _ _ _ _ _ _ _ _ _ _ _ _ _ _ _ _ _ _ _ _ _ _)]
  unfold kernelRun0_C
  dsimp only
  try sl_unfold_words
  rw [View.canon_unit_zero hz0]
  simp only [readAt_unread0 harg2 hz0, readAt_unread0 harg3 hz0, readAt_unread0 harg4 hz0, readAt_unread0 harg5 hz0, readAt_unread0 harg6 hz0, readAt_unread0 harg7 hz0, readAt_unread0 harg10 hz0]

theorem out0_C_6_eq : out0_C_6 c i arg2 harg2 arg3 harg3 arg4 harg4 arg5 harg5 arg6 harg6 arg7 harg7 arg8 harg8 arg9 harg9 arg10 harg10 hc0 hc1 x0 x1 x2 x3 x4 x5 xs0 = k0_pay3 (k0_pay2 x0 x1 x2 xs0 x3) x4 := by
  unfold out0_C_6
  rw [View.read_writes_eq_canon _ _ _ (cover0_C_6 _ _ _ _ _ _ _ _ _ _ _ _ _ _ _ _ _ _ _ _ _ _ _ _ _ _ _ _ _)]
  unfold kernelRun0_C
  dsimp only
  try sl_unfold_words
  rw [View.canon_unit_zero hz0, View.readCov_unit_zero (S := S512x4096) _ hz0]
  simp only [readAt_unread0 harg2 hz0, readAt_unread0 harg3 hz0, readAt_unread0 harg4 hz0, readAt_unread0 harg5 hz0, readAt_unread0 harg6 hz0, readAt_unread0 harg7 hz0, readAt_unread0 harg10 hz0]

theorem out0_C_7_eq : out0_C_7 c i arg2 harg2 arg3 harg3 arg4 harg4 arg5 harg5 arg6 harg6 arg7 harg7 arg8 harg8 arg9 harg9 arg10 harg10 hc0 hc1 x0 x1 x2 x3 x4 x5 xs0 = k0_pay4 (k0_pay2 x0 x1 x2 xs0 x3) x4 x5 := by
  unfold out0_C_7
  rw [View.read_writes_eq_canon _ _ _ (cover0_C_7 _ _ _ _ _ _ _ _ _ _ _ _ _ _ _ _ _ _ _ _ _ _ _ _ _ _ _ _ _)]
  unfold kernelRun0_C
  dsimp only
  try sl_unfold_words
  rw [View.canon_unit_zero hz0, View.readCov_unit_zero (S := S512x4096) _ hz0]
  simp only [readAt_unread0 harg2 hz0, readAt_unread0 harg3 hz0, readAt_unread0 harg4 hz0, readAt_unread0 harg5 hz0, readAt_unread0 harg6 hz0, readAt_unread0 harg7 hz0, readAt_unread0 harg10 hz0]

end

end Cert.KernelIdeal.HandValue

end
-- ==== Proof.KernelIdeal.R0Pay.lean ====
import proofs.«430600_j30915174596644_3_alg».proof.Proof.Gen.KernelIdeal.Skeleton
import proofs.«430600_j30915174596644_3_alg».proof.Proof.LibPlainDot
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.HandValue

open Cert.KernelIdeal Cert.KernelIdeal.Gen Idealize.ShloMosaic Idealize.ShloMosaic.ValueIdx

theorem plain_first : PlainDot.IsPlain dot_S512x152_S152x256_S512x256_1_0_0_1_n_n := ⟨rfl, rfl, rfl, rfl, rfl, rfl⟩

theorem plain_second : PlainDot.IsPlain dot_S512x256_S256x4096_S512x4096_1_0_0_1_n_n := ⟨rfl, rfl, rfl, rfl, rfl, rfl⟩

theorem plain_proj : PlainDot.IsPlain dot_S512x4096_S4096x128_S512x128_1_0_0_1_n_n := ⟨rfl, rfl, rfl, rfl, rfl, rfl⟩

theorem k0_pay1_apply (r : Fin 512) (q : Fin 4096) : k0_pay1 (F := Ideal) (ix2 r q) = 0 := by
  unfold k0_pay1
  rw [shapeCast_self]
  exact Ideal.ofBits_zero_f32

theorem hidden_tile_apply (v3 : FVec Ideal S512x152 .bf16) (v5 : FVec Ideal S152x256 .bf16) (v8 : FVec Ideal S1x256 .f32)
    (r : Fin 512) (k' : Fin 256) :
    maximumf (addf (matmul dot_S512x152_S152x256_S512x256_1_0_0_1_n_n none v3 v5 (constant S512x256 .f32 0x00000000#32))
        (broadcastTo S512x256 v8 broadcasts_S1x256_S512x256))
      (broadcast S512x256 (Scalar.ofBits (F := Ideal) .f32 0x00000000#32)) (ix2 r k')
      = max ((∑ a : Fin 152, v3 (ix2 r a) * v5 (ix2 a k')) + v8 (ix2 0 k')) 0 := by
  rw [maximumf_apply, addf_apply, broadcast_apply]
  simp only [matmul]
  rw [PlainDot.matmul_zero_apply _ plain_first, broadcastTo_1b_ab_apply]
  exact congrArg (max _) Ideal.ofBits_zero_f32

theorem k0_pay2_apply (v3 : Vec Ideal S512x152 .bf16) (v5 : Vec Ideal S152x256 .bf16) (v8 : Vec Ideal S1x256 .f32)
    (v14 : Vec Ideal S512x4096 .f32) (v16 : Vec Ideal S256x4096 .bf16) (r : Fin 512) (q : Fin 4096) :
    k0_pay2 v3 v5 v8 v14 v16 (ix2 r q)
      = v14 (ix2 r q) + ∑ k' : Fin 256, max ((∑ a : Fin 152, v3 (ix2 r a) * v5 (ix2 a k')) + v8 (ix2 0 k')) 0 * v16 (ix2 k' q) := by
  unfold k0_pay2
  simp only [shapeCast_self]
  rw [addf_apply]
  simp only [matmul]
  rw [PlainDot.matmul_zero_apply _ plain_second]
  refine congrArg (v14 (ix2 r q) + ·) (Finset.sum_congr rfl fun k' _ => ?_)
  rw [truncf_apply]
  exact congrArg (· * v16 (ix2 k' q)) (hidden_tile_apply v3 v5 v8 r k')

theorem k0_pay3_apply (v26 : Vec Ideal S512x4096 .f32) (v27 : Vec Ideal S1x4096 .f32) (r : Fin 512) (q : Fin 4096) :
    k0_pay3 v26 v27 (ix2 r q) = max (v26 (ix2 r q) + v27 (ix2 0 q)) 0 := by
  unfold k0_pay3
  simp only [shapeCast_self]
  rw [maximumf_apply, addf_apply, broadcast_apply, broadcastTo_1b_ab_apply]
  exact congrArg (max _) Ideal.ofBits_zero_f32

theorem k0_pay4_apply (v26 : Vec Ideal S512x4096 .f32) (v27 : Vec Ideal S1x4096 .f32) (v35 : Vec Ideal S4096x128 .bf16)
    (r : Fin 512) (d : Fin 128) :
    k0_pay4 v26 v27 v35 (ix2 r d) = ∑ j : Fin 4096, max (v26 (ix2 r j) + v27 (ix2 0 j)) 0 * v35 (ix2 j d) := by
  unfold k0_pay4
  simp only [shapeCast_self]
  simp only [matmul]
  rw [PlainDot.matmul_zero_apply _ plain_proj]
  refine Finset.sum_congr rfl fun j _ => ?_
  rw [truncf_apply, k0_pay3_apply]

end Cert.KernelIdeal.HandValue

end
-- ==== Proof.KernelIdeal.R0Acc.lean ====
import proofs.«430600_j30915174596644_3_alg».proof.Proof.KernelIdeal.R0Pay
import proofs.«430600_j30915174596644_3_alg».proof.Proof.Spec

noncomputable section

namespace Cert.KernelIdeal.HandValue

open Cert.KernelIdeal Cert.KernelIdeal.Gen Idealize.ShloMosaic Idealize.ShloMosaic.ValueIdx

variable (X : Fin 4096 → Fin 152 → EReal) (W1 : Fin 152 → Fin 4096 → EReal) (b1 : Fin 4096 → EReal)
  (W2 : Fin 4096 → Fin 4096 → EReal) (b2 : Fin 4096 → EReal)

def tileSum (e q : Fin 4096) (kt : ℕ) : EReal :=
  ∑ k' : Fin 256, (if h : kt * 256 + k'.val < 4096 then GraphNet.hidden X W1 b1 e ⟨kt * 256 + k'.val, h⟩ * W2 ⟨kt * 256 + k'.val, h⟩ q else 0)

def accUpTo (e q : Fin 4096) (n : ℕ) : EReal := ∑ kt ∈ Finset.range (n + 1), tileSum X W1 b1 W2 e q kt

theorem accUpTo_zero (e q : Fin 4096) : 0 + tileSum X W1 b1 W2 e q 0 = accUpTo X W1 b1 W2 e q 0 := by
  unfold accUpTo
  rw [Finset.sum_range_one, zero_add]

theorem accUpTo_succ (e q : Fin 4096) (n : ℕ) :
    accUpTo X W1 b1 W2 e q n + tileSum X W1 b1 W2 e q (n + 1) = accUpTo X W1 b1 W2 e q (n + 1) :=
  (Finset.sum_range_succ _ _).symm

theorem accUpTo_last (e q : Fin 4096) :
    accUpTo X W1 b1 W2 e q 15 = ∑ k : Fin 4096, GraphNet.hidden X W1 b1 e k * W2 k q := by
  unfold accUpTo tileSum
  exact GraphNet.sum_range_blocks (fun k => GraphNet.hidden X W1 b1 e k * W2 k q)

theorem pay2_step (v3 : Vec Ideal S512x152 .bf16) (v5 : Vec Ideal S152x256 .bf16) (v8 : Vec Ideal S1x256 .f32)
    (v14 : Vec Ideal S512x4096 .f32) (v16 : Vec Ideal S256x4096 .bf16) (e : Fin 4096) (kt : ℕ) (hkt : kt < 16)
    (r : Fin 512) (q : Fin 4096)
    (h3 : ∀ a : Fin 152, v3 (ix2 r a) = X e a)
    (h5 : ∀ (a : Fin 152) (k' : Fin 256), v5 (ix2 a k') = W1 a ⟨kt * 256 + k'.val, by have := k'.isLt; omega⟩)
    (h8 : ∀ k' : Fin 256, v8 (ix2 0 k') = b1 ⟨kt * 256 + k'.val, by have := k'.isLt; omega⟩)
    (h16 : ∀ k' : Fin 256, v16 (ix2 k' q) = W2 ⟨kt * 256 + k'.val, by have := k'.isLt; omega⟩ q) :
    k0_pay2 v3 v5 v8 v14 v16 (ix2 r q) = v14 (ix2 r q) + tileSum X W1 b1 W2 e q kt := by
  rw [k0_pay2_apply]
  unfold tileSum
  refine congrArg (v14 (ix2 r q) + ·) (Finset.sum_congr rfl fun k' _ => ?_)
  have hk : kt * 256 + k'.val < 4096 := by have := k'.isLt; omega
  have e1 : (∑ a : Fin 152, v3 (ix2 r a) * v5 (ix2 a k')) = ∑ a : Fin 152, X e a * W1 a ⟨kt * 256 + k'.val, hk⟩ :=
    Finset.sum_congr rfl fun a _ => by rw [h3 a, h5 a k']
  rw [dif_pos hk, e1, h8 k', h16 k']
  rfl

theorem pay3_final (v26 : Vec Ideal S512x4096 .f32) (v27 : Vec Ideal S1x4096 .f32) (e : Fin 4096) (r : Fin 512) (q : Fin 4096)
    (h26 : v26 (ix2 r q) = accUpTo X W1 b1 W2 e q 15) (h27 : v27 (ix2 0 q) = b2 q) :
    k0_pay3 v26 v27 (ix2 r q) = GraphNet.newEdges X W1 b1 W2 b2 e q := by
  rw [k0_pay3_apply, h26, h27, accUpTo_last]
  rfl

theorem pay4_final (W3 : Fin 4096 → Fin 128 → EReal) (v26 : Vec Ideal S512x4096 .f32) (v27 : Vec Ideal S1x4096 .f32)
    (v35 : Vec Ideal S4096x128 .bf16) (e : Fin 4096) (r : Fin 512) (d : Fin 128)
    (h26 : ∀ j : Fin 4096, v26 (ix2 r j) = accUpTo X W1 b1 W2 e j 15) (h27 : ∀ j : Fin 4096, v27 (ix2 0 j) = b2 j)
    (h35 : ∀ j : Fin 4096, v35 (ix2 j d) = W3 j d) :
    k0_pay4 v26 v27 v35 (ix2 r d) = ∑ j : Fin 4096, GraphNet.newEdges X W1 b1 W2 b2 e j * W3 j d := by
  rw [k0_pay4_apply]
  refine Finset.sum_congr rfl fun j _ => ?_
  rw [h26 j, h27 j, h35 j, accUpTo_last]
  rfl

end Cert.KernelIdeal.HandValue

end
-- ==== Proof.KernelIdeal.R0Blocks.lean ====
import proofs.«430600_j30915174596644_3_alg».proof.Proof.KernelIdeal.R0Runs
import Idealize.ShloMosaic.Lib.ValueIdx
import Idealize.ShloMosaic.Lib.Pipeline.Value

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable {F : FTy → Type} [FloatOps F]
variable (V : (c : Dev nD) → (b : Ref sig .tc) → Buf (Elt F) ((c : Thread nD τ).loc b))

def rowAt (n : ℕ) (hn : n < cfg0.N) (r : Fin 512) : Fin 4096 :=
  ⟨n / 16 * 512 + r.val, by have := r.isLt; have hN : cfg0.N = 128 := N_0; omega⟩

def colAt (n : ℕ) (k' : Fin 256) : Fin 4096 :=
  ⟨n % 16 * 256 + k'.val, by have := k'.isLt; omega⟩

theorem idx0_facts : ∀ t : Fin cfg0.N,
    (win0_0.index t (0 : Fin 2) = t.val / 16 ∧ win0_0.index t (1 : Fin 2) = 0)
    ∧ (win0_1.index t (0 : Fin 2) = 0 ∧ win0_1.index t (1 : Fin 2) = t.val % 16)
    ∧ (win0_2.index t (0 : Fin 2) = 0 ∧ win0_2.index t (1 : Fin 2) = t.val % 16)
    ∧ (win0_3.index t (0 : Fin 2) = t.val % 16 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val / 16 ∧ win0_6.index t (1 : Fin 2) = 0)
    ∧ (win0_7.index t (0 : Fin 2) = t.val / 16 ∧ win0_7.index t (1 : Fin 2) = 0) :=
  (by decide +kernel : ∀ t : Fin grid0.N, _)

theorem iblk0_0_apply (c : Dev nD) (t : Fin cfg0.N) (r : Fin 512) (a : Fin 152) :
    (iblk0 V c 0 t : Vec F S512x152 .bf16) (ix2 r a)
      = (V c main_v16 : S4096x152.Idx → Elt F .bf16) (ix2 (rowAt t.val t.isLt r) a) := by
  have hi := (idx0_facts t).1
  unfold iblk0
  rw [View.read_apply]
  show V c main_v16 _ = V c main_v16 _
  congr 1
  funext ax
  apply Fin.ext
  match ax with
  | ⟨0, _⟩ => show win0_0.index t 0 * 512 + 1 * r.val = t.val / 16 * 512 + r.val; rw [hi.1]; omega
  | ⟨1, _⟩ => show win0_0.index t 1 * 152 + 1 * a.val = a.val; rw [hi.2]; omega

theorem iblk0_1_apply (c : Dev nD) (t : Fin cfg0.N) (a : Fin 152) (k' : Fin 256) :
    (iblk0 V c 1 t : Vec F S152x256 .bf16) (ix2 a k')
      = (V c main_v21 : S152x4096.Idx → Elt F .bf16) (ix2 a (colAt t.val k')) := by
  have hi := (idx0_facts t).2.1
  unfold iblk0
  rw [View.read_apply]
  show V c main_v21 _ = V c main_v21 _
  congr 1
  funext ax
  apply Fin.ext
  match ax with
  | ⟨0, _⟩ => show win0_1.index t 0 * 152 + 1 * a.val = a.val; rw [hi.1]; omega
  | ⟨1, _⟩ => show win0_1.index t 1 * 256 + 1 * k'.val = t.val % 16 * 256 + k'.val; rw [hi.2]; omega

theorem iblk0_2_apply (c : Dev nD) (t : Fin cfg0.N) (k' : Fin 256) :
    (iblk0 V c 2 t : Vec F S1x256 .f32) (ix2 0 k')
      = (V c main_v17 : S1x4096.Idx → Elt F .f32) (ix2 0 (colAt t.val k')) := by
  have hi := (idx0_facts t).2.2.1
  unfold iblk0
  rw [View.read_apply]
  show V c main_v17 _ = V c main_v17 _
  congr 1
  funext ax
  apply Fin.ext
  match ax with
  | ⟨0, _⟩ => show win0_2.index t 0 * 1 + 1 * 0 = 0; rw [hi.1]
  | ⟨1, _⟩ => show win0_2.index t 1 * 256 + 1 * k'.val = t.val % 16 * 256 + k'.val; rw [hi.2]; omega

theorem iblk0_3_apply (c : Dev nD) (t : Fin cfg0.N) (k' : Fin 256) (q : Fin 4096) :
    (iblk0 V c 3 t : Vec F S256x4096 .bf16) (ix2 k' q)
      = (V c main_v22 : S4096x4096.Idx → Elt F .bf16) (ix2 (colAt t.val k') q) := by
  have hi := (idx0_facts t).2.2.2.1
  unfold iblk0
  rw [View.read_apply]
  show V c main_v22 _ = V c main_v22 _
  congr 1
  funext ax
  apply Fin.ext
  match ax with
  | ⟨0, _⟩ => show win0_3.index t 0 * 256 + 1 * k'.val = t.val % 16 * 256 + k'.val; rw [hi.1]; omega
  | ⟨1, _⟩ => show win0_3.index t 1 * 4096 + 1 * q.val = q.val; rw [hi.2]; omega

theorem iblk0_4_apply (c : Dev nD) (t : Fin cfg0.N) (q : Fin 4096) :
    (iblk0 V c 4 t : Vec F S1x4096 .f32) (ix2 0 q) = (V c main_v18 : S1x4096.Idx → Elt F .f32) (ix2 0 q) := by
  have hi := (idx0_facts t).2.2.2.2.1
  unfold iblk0
  rw [View.read_apply]
  show V c main_v18 _ = V c main_v18 _
  congr 1
  funext ax
  apply Fin.ext
  match ax with
  | ⟨0, _⟩ => show win0_4.index t 0 * 1 + 1 * 0 = 0; rw [hi.1]
  | ⟨1, _⟩ => show win0_4.index t 1 * 4096 + 1 * q.val = q.val; rw [hi.2]; omega

theorem iblk0_5_apply (c : Dev nD) (t : Fin cfg0.N) (j : Fin 4096) (d : Fin 128) :
    (iblk0 V c 5 t : Vec F S4096x128 .bf16) (ix2 j d) = (V c main_v28 : S4096x128.Idx → Elt F .bf16) (ix2 j d) := by
  have hi := (idx0_facts t).2.2.2.2.2.1
  unfold iblk0
  rw [View.read_apply]
  show V c main_v28 _ = V c main_v28 _
  congr 1
  funext ax
  apply Fin.ext
  match ax with
  | ⟨0, _⟩ => show win0_5.index t 0 * 4096 + 1 * j.val = j.val; rw [hi.1]; omega
  | ⟨1, _⟩ => show win0_5.index t 1 * 128 + 1 * d.val = d.val; rw [hi.2]; omega

end Cert.KernelIdeal.HandValue

end
-- ==== Proof.KernelIdeal.R0Point.lean ====
import proofs.«430600_j30915174596644_3_alg».proof.Proof.KernelIdeal.R0Acc
import proofs.«430600_j30915174596644_3_alg».proof.Proof.KernelIdeal.R0Blocks

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

abbrev eX (c : Dev nD) : Fin 4096 → Fin 152 → EReal := fun e a => V c main_v16 (ix2 e a)
abbrev eW1 (c : Dev nD) : Fin 152 → Fin 4096 → EReal := fun a k => V c main_v21 (ix2 a k)
abbrev eb1 (c : Dev nD) : Fin 4096 → EReal := fun k => V c main_v17 (ix2 0 k)
abbrev eW2 (c : Dev nD) : Fin 4096 → Fin 4096 → EReal := fun k j => V c main_v22 (ix2 k j)
abbrev eb2 (c : Dev nD) : Fin 4096 → EReal := fun j => V c main_v18 (ix2 0 j)
abbrev eW3 (c : Dev nD) : Fin 4096 → Fin 128 → EReal := fun j d => V c main_v28 (ix2 j d)

theorem acc_point (c : Dev nD) (t : Fin cfg0.N) (v14 : Vec Ideal S512x4096 .f32) (r : Fin 512) (q : Fin 4096) :
    k0_pay2 (iblk0 V c 0 t) (iblk0 V c 1 t) (iblk0 V c 2 t) v14 (iblk0 V c 3 t) (ix2 r q)
      = v14 (ix2 r q) + tileSum (eX V c) (eW1 V c) (eb1 V c) (eW2 V c) (rowAt t.val t.isLt r) q (t.val % 16) :=
  pay2_step (eX V c) (eW1 V c) (eb1 V c) (eW2 V c) (iblk0 V c 0 t) (iblk0 V c 1 t) (iblk0 V c 2 t) v14 (iblk0 V c 3 t)
    (rowAt t.val t.isLt r) (t.val % 16) (Nat.mod_lt _ (by decide)) r q
    (fun a => iblk0_0_apply V c t r a) (fun a k' => iblk0_1_apply V c t a k') (fun k' => iblk0_2_apply V c t k')
    (fun k' => iblk0_3_apply V c t k' q)

def G6 (c : Dev nD) : S4096x4096.Idx → EReal := fun i =>
  GraphNet.newEdges (eX V c) (eW1 V c) (eb1 V c) (eW2 V c) (eb2 V c) ⟨(i 0).val, idx2_lt0 i⟩ ⟨(i 1).val, idx2_lt1 i⟩

def G7 (c : Dev nD) : S4096x128.Idx → EReal := fun i =>
  ∑ j : Fin 4096, GraphNet.newEdges (eX V c) (eW1 V c) (eb1 V c) (eW2 V c) (eb2 V c) ⟨(i 0).val, idx2_lt0 i⟩ j
    * eW3 V c j ⟨(i 1).val, idx2_lt1 i⟩

section Last

variable (c : Dev nD) (t : Fin cfg0.N) (h15 : t.val % 16 = 15) (xs0 : Vec Ideal S512x4096 .f32)
  (hxs : ∀ (r : Fin 512) (q : Fin 4096), xs0 (ix2 r q) = accUpTo (eX V c) (eW1 V c) (eb1 V c) (eW2 V c) (rowAt t.val t.isLt r) q 14)
include h15 hxs

theorem acc_last (r : Fin 512) (q : Fin 4096) :
    k0_pay2 (iblk0 V c 0 t) (iblk0 V c 1 t) (iblk0 V c 2 t) xs0 (iblk0 V c 3 t) (ix2 r q)
      = accUpTo (eX V c) (eW1 V c) (eb1 V c) (eW2 V c) (rowAt t.val t.isLt r) q 15 := by
  rw [acc_point V c t xs0 r q, hxs r q, h15]
  exact accUpTo_succ _ _ _ _ _ _ 14

theorem out6_at (y : S512x4096.Idx) (i : S4096x4096.Idx) (h0 : (i 0).val = t.val / 16 * 512 + (y 0).val) (h1 : (i 1).val = (y 1).val) :
    k0_pay3 (k0_pay2 (iblk0 V c 0 t) (iblk0 V c 1 t) (iblk0 V c 2 t) xs0 (iblk0 V c 3 t)) (iblk0 V c 4 t) y = G6 V c i := by
  obtain ⟨r, q, rfl⟩ : ∃ (r : Fin 512) (q : Fin 4096), y = ix2 r q := ⟨y 0, y 1, eq_ix2 y⟩
  have he : (⟨(i 0).val, idx2_lt0 i⟩ : Fin 4096) = rowAt t.val t.isLt r := Fin.ext h0
  have hq : (⟨(i 1).val, idx2_lt1 i⟩ : Fin 4096) = q := Fin.ext h1
  refine (pay3_final (eX V c) (eW1 V c) (eb1 V c) (eW2 V c) (eb2 V c) _ _ (rowAt t.val t.isLt r) r q
    (acc_last V c t h15 xs0 hxs r q) (iblk0_4_apply V c t q)).trans ?_
  show _ = GraphNet.newEdges _ _ _ _ _ (⟨(i 0).val, idx2_lt0 i⟩ : Fin 4096) (⟨(i 1).val, idx2_lt1 i⟩ : Fin 4096)
  rw [he, hq]

theorem out7_at (y : S512x128.Idx) (i : S4096x128.Idx) (h0 : (i 0).val = t.val / 16 * 512 + (y 0).val) (h1 : (i 1).val = (y 1).val) :
    k0_pay4 (k0_pay2 (iblk0 V c 0 t) (iblk0 V c 1 t) (iblk0 V c 2 t) xs0 (iblk0 V c 3 t)) (iblk0 V c 4 t) (iblk0 V c 5 t) y
      = G7 V c i := by
  obtain ⟨r, d, rfl⟩ : ∃ (r : Fin 512) (d : Fin 128), y = ix2 r d := ⟨y 0, y 1, eq_ix2 y⟩
  have he : (⟨(i 0).val, idx2_lt0 i⟩ : Fin 4096) = rowAt t.val t.isLt r := Fin.ext h0
  have hd : (⟨(i 1).val, idx2_lt1 i⟩ : Fin 128) = d := Fin.ext h1
  refine (pay4_final (eX V c) (eW1 V c) (eb1 V c) (eW2 V c) (eb2 V c) (eW3 V c) _ _ _ (rowAt t.val t.isLt r) r d
    (fun j => acc_last V c t h15 xs0 hxs r j) (fun j => iblk0_4_apply V c t j) (fun j => iblk0_5_apply V c t j d)).trans ?_
  show _ = ∑ j : Fin 4096, GraphNet.newEdges _ _ _ _ _ (⟨(i 0).val, idx2_lt0 i⟩ : Fin 4096) j
    * eW3 V c j (⟨(i 1).val, idx2_lt1 i⟩ : Fin 128)
  rw [he, hd]

end Last

-- Every row index below 4096 lies in one run of 512 rows; the run's sixteenth point is named.
theorem tile_of_row (i0 : ℕ) (h : i0 < 4096) :
    ∃ t : Fin cfg0.N, t.val % 16 = 15 ∧ t.val / 16 * 512 ≤ i0 ∧ i0 < t.val / 16 * 512 + 512 :=
  ⟨⟨16 * (i0 / 512) + 15, by have hN : cfg0.N = 128 := N_0; omega⟩,
    by show (16 * (i0 / 512) + 15) % 16 = 15; omega,
    by show (16 * (i0 / 512) + 15) / 16 * 512 ≤ i0; omega,
    by show i0 < (16 * (i0 / 512) + 15) / 16 * 512 + 512; omega⟩

theorem cover6 (i : S4096x4096.Idx) : ∃ t : Fin cfg0.N, (cfg0.win 6).flush t = true ∧ i ∈ ((cfg0.win 6).blk t).view.set := by
  obtain ⟨t, h15, hlo, hhi⟩ := tile_of_row (i 0).val (idx2_lt0 i)
  have hi1 : (i 1).val < 4096 := idx2_lt1 i
  have hx := (idx0_facts t).2.2.2.2.2.2.1
  refine ⟨t, (flush0_6 t).mpr h15, ?_⟩
  show i ∈ ((View.whole main_v29_0).slice (win0_6.rect t)).set
  rw [View.set_slice_whole, Rect.mem_set_unit]
  intro a
  match a with
  | ⟨0, _⟩ => show win0_6.index t 0 * 512 ≤ (i 0).val ∧ (i 0).val < win0_6.index t 0 * 512 + 512; rw [hx.1]; exact ⟨hlo, hhi⟩
  | ⟨1, _⟩ => show win0_6.index t 1 * 4096 ≤ (i 1).val ∧ (i 1).val < win0_6.index t 1 * 4096 + 4096; rw [hx.2]; omega

theorem cover7 (i : S4096x128.Idx) : ∃ t : Fin cfg0.N, (cfg0.win 7).flush t = true ∧ i ∈ ((cfg0.win 7).blk t).view.set := by
  obtain ⟨t, h15, hlo, hhi⟩ := tile_of_row (i 0).val (idx2_lt0 i)
  have hi1 : (i 1).val < 128 := idx2_lt1 i
  have hx := (idx0_facts t).2.2.2.2.2.2.2
  refine ⟨t, (flush0_7 t).mpr h15, ?_⟩
  show i ∈ ((View.whole main_v29_1).slice (win0_7.rect t)).set
  rw [View.set_slice_whole, Rect.mem_set_unit]
  intro a
  match a with
  | ⟨0, _⟩ => show win0_7.index t 0 * 512 ≤ (i 0).val ∧ (i 0).val < win0_7.index t 0 * 512 + 512; rw [hx.1]; exact ⟨hlo, hhi⟩
  | ⟨1, _⟩ => show win0_7.index t 1 * 128 ≤ (i 1).val ∧ (i 1).val < win0_7.index t 1 * 128 + 128; rw [hx.2]; omega

end Cert.KernelIdeal.HandValue

end
-- ==== Proof.KernelIdeal.R0Value.lean ====
import proofs.«430600_j30915174596644_3_alg».proof.Proof.KernelIdeal.R0Frame
import proofs.«430600_j30915174596644_3_alg».proof.Proof.KernelIdeal.R0Cases
import proofs.«430600_j30915174596644_3_alg».proof.Proof.KernelIdeal.R0Point
import Idealize.ShloMosaic.Lib.Pipeline.Value

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem scratch_eq (c : Dev nD) : ∀ (n : ℕ) (hn : n < cfg0.N) (r : Fin 512) (q : Fin 4096),
    (outsAt0 V c n hn).2.2 (ix2 r q)
      = accUpTo (eX V c) (eW1 V c) (eb1 V c) (eW2 V c) (rowAt n hn r) q (n % 16) := by
  intro n
  induction n with
  | zero =>
    intro hn r q
    rw [show outsAt0 V c 0 hn = _ from outsAt0_A V c ⟨0, hn⟩ (Nat.zero_mod _) (by show ¬0 % 16 = 15; omega)]
    dsimp only
    rw [sout0_A_0_eq]
    refine (acc_point V c ⟨0, hn⟩ _ r q).trans ?_
    rw [k0_pay1_apply]
    exact accUpTo_zero _ _ _ _ _ _
  | succ n ih =>
    intro hn r q
    by_cases h0 : (n + 1) % 16 = 0
    · have h1 : ¬(n + 1) % 16 = 15 := by omega
      rw [show outsAt0 V c (n + 1) hn = _ from outsAt0_A V c ⟨n + 1, hn⟩ h0 h1]
      dsimp only
      rw [sout0_A_0_eq]
      refine (acc_point V c ⟨n + 1, hn⟩ _ r q).trans ?_
      rw [k0_pay1_apply]
      show 0 + tileSum _ _ _ _ (rowAt (n + 1) hn r) q ((n + 1) % 16) = _
      rw [h0]
      exact accUpTo_zero _ _ _ _ _ _
    · have e1 : rowAt n (Nat.lt_of_succ_lt hn) r = rowAt (n + 1) hn r :=
        Fin.ext (by show n / 16 * 512 + r.val = (n + 1) / 16 * 512 + r.val; omega)
      have e2 : (n + 1) % 16 = n % 16 + 1 := by omega
      by_cases h1 : (n + 1) % 16 = 15
      on_goal 1 => rw [show outsAt0 V c (n + 1) hn = _ from outsAt0_C V c ⟨n + 1, hn⟩ h0 h1]; dsimp only; rw [sout0_C_0_eq]
      on_goal 2 => rw [show outsAt0 V c (n + 1) hn = _ from outsAt0_B V c ⟨n + 1, hn⟩ h0 h1]; dsimp only; rw [sout0_B_0_eq]
      all_goals
        refine (acc_point V c ⟨n + 1, hn⟩ _ r q).trans ?_
        show (outsAt0 V c n _).2.2 (ix2 r q) + tileSum _ _ _ _ (rowAt (n + 1) hn r) q ((n + 1) % 16) = _
        rw [ih _ r q, e1, e2]
        exact accUpTo_succ _ _ _ _ _ _ _

theorem scratch_before_last (c : Dev nD) (t : Fin cfg0.N) (h15 : t.val % 16 = 15) (hlt : t.val - 1 < cfg0.N)
    (r : Fin 512) (q : Fin 4096) :
    (outsAt0 V c (t.val - 1) hlt).2.2 (ix2 r q)
      = accUpTo (eX V c) (eW1 V c) (eb1 V c) (eW2 V c) (rowAt t.val t.isLt r) q 14 := by
  rw [scratch_eq V c (t.val - 1) hlt r q]
  have e1 : rowAt (t.val - 1) hlt r = rowAt t.val t.isLt r :=
    Fin.ext (by show (t.val - 1) / 16 * 512 + r.val = t.val / 16 * 512 + r.val; omega)
  rw [e1, show (t.val - 1) % 16 = 14 from by omega]

theorem flushed6_eq (c : Dev nD) (t : Fin cfg0.N) (hf : (cfg0.win 6).flush t = true) :
    (dat0 V c).flushed 6 t = ((cfg0.win 6).blk t).view.read (Elt Ideal) (G6 V c) := by
  have h15 : t.val % 16 = 15 := (flush0_6 t).mp hf
  have h0 : ¬t.val % 16 = 0 := by omega
  have hi := (idx0_facts t).2.2.2.2.2.2.1
  show (cfg0.win 6).cut (grid0.coords t) ((dat0 V c).after 6 t) = _
  rw [after0_6, outsAt0_C V c t h0 h15]
  dsimp only
  rw [out0_C_6_eq]
  funext y
  refine out6_at V c t h15 _ (fun r q => scratch_before_last V c t h15 _ r q) y _ ?_ ?_
  · show win0_6.index t 0 * 512 + 1 * (y 0).val = t.val / 16 * 512 + (y 0).val; rw [hi.1]; omega
  · show win0_6.index t 1 * 4096 + 1 * (y 1).val = (y 1).val; rw [hi.2]; omega

theorem flushed7_eq (c : Dev nD) (t : Fin cfg0.N) (hf : (cfg0.win 7).flush t = true) :
    (dat0 V c).flushed 7 t = ((cfg0.win 7).blk t).view.read (Elt Ideal) (G7 V c) := by
  have h15 : t.val % 16 = 15 := (flush0_7 t).mp hf
  have h0 : ¬t.val % 16 = 0 := by omega
  have hi := (idx0_facts t).2.2.2.2.2.2.2
  show (cfg0.win 7).cut (grid0.coords t) ((dat0 V c).after 7 t) = _
  rw [after0_7, outsAt0_C V c t h0 h15]
  dsimp only
  rw [out0_C_7_eq]
  funext y
  refine out7_at V c t h15 _ (fun r q => scratch_before_last V c t h15 _ r q) y _ ?_ ?_
  · show win0_7.index t 0 * 512 + 1 * (y 0).val = t.val / 16 * 512 + (y 0).val; rw [hi.1]; omega
  · show win0_7.index t 1 * 128 + 1 * (y 1).val = (y 1).val; rw [hi.2]; omega

theorem final6 (c : Dev nD) : (dat0 V c).arrAt 6 cfg0.N = G6 V c :=
  (dat0 V c).arrAt_eq_of_cover 6 (G6 V c) (flushed6_eq V c) cover6

theorem final7 (c : Dev nD) : (dat0 V c).arrAt 7 cfg0.N = G7 V c :=
  (dat0 V c).arrAt_eq_of_cover 7 (G7 V c) (flushed7_eq V c) cover7

end Cert.KernelIdeal.HandValue

end
-- ==== Proof.KernelIdeal.R1Pay.lean ====
import proofs.«430600_j30915174596644_3_alg».proof.Proof.KernelIdeal.R1Frame
import Idealize.ShloMosaic.Lib.ValueIdx
import Idealize.ShloMosaic.Lib.Pipeline.Value
import Idealize.ShloMosaic.Lib.ValueLayout
import Idealize.ShloMosaic.PureOps.Ideal.Laws
import proofs.«430600_j30915174596644_3_alg».proof.Proof.LibPlainDot

set_option maxRecDepth 16384

noncomputable section

namespace Cert.KernelIdeal.HandValue

open Cert.KernelIdeal Cert.KernelIdeal.Gen Cert.KernelIdeal.Hand
open Idealize.ShloMosaic Idealize.ShloMosaic.ValueIdx

-- A one-column array laid along every column reads, at (p, c), the column's entry in row p.
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

-- The word row r of tile i0 is compared with: the tile's first row number plus r.
theorem rowWord (i0 : ℕ) (r : Fin 512) (h : S512x1.Iotas .tc 32 [0]) :
    IntOp.addi (Scalar.muli (BitVec.ofNat 32 i0) 512#32) (iota .tc S512x1 32 [0] h (ix2 r (0 : Fin 1)))
      = BitVec.ofNat 32 (i0 * 512 + r.val) := by
  rw [iota_single_apply]
  show BitVec.ofNat 32 i0 * 512#32 + BitVec.ofNat 32 r.val = _
  rw [BitVec.ofNat_add, BitVec.ofNat_mul]

-- An equality test's bit, widened and converted signed, is one where the words agree and zero elsewhere.
theorem sitofp_cmpi_eq (w t : BitVec 32) :
    (FloatOps.sitofp (F := Ideal) .f32 ((IntOp.cmpi .eq w t).setWidth 32) : EReal) = if w = t then 1 else 0 := by
  have hb : ∀ b : BitVec 1, (b.setWidth 32).toInt = (b.toNat : ℤ) := by decide
  show (((((IntOp.cmpi .eq w t).setWidth 32).toInt : ℤ) : ℝ) : EReal) = _
  rw [hb]
  unfold IntOp.cmpi
  by_cases h : w = t <;> simp [h]

theorem cmpi_apply' {s : Shape} {w : ℕ} (p : CmpIPredicate) (x y : IVec s w) (j : s.Idx) : cmpi p x y j = IntOp.cmpi p (x j) (y j) := rfl
theorem addi_apply' {s : Shape} {w : ℕ} (x y : IVec s w) (j : s.Idx) : addi x y j = IntOp.addi (x j) (y j) := rfl

-- The part's result at (r, a): the two one-hot gathers of the halves of the table, the node block's product and the one-row product.
theorem pay2_apply (i : grid1.Coords) (v4 v6 : Vec Ideal S1x4096 .i32) (v20 : Vec Ideal S4096x128 .f32) (v29 : Vec Ideal S512x64 .f32)
    (v30 : Vec Ideal S64x64 .f32) (v33 : Vec Ideal S1x8 .f32) (v34 : Vec Ideal S8x64 .f32) (r : Fin 512) (a : Fin 64) :
    k1_pay2 (F := Ideal) i v4 v6 v20 v29 v30 v33 v34 (ix2 r a)
      = (((∑ e : Fin 4096, (if v4 (ix2 (0 : Fin 1) e) = BitVec.ofNat 32 ((i 0).val * 512 + r.val) then (1 : EReal) else 0)
              * v20 (ix2 e (⟨a.val, Nat.lt_of_lt_of_le a.isLt (by decide)⟩ : Fin 128)))
          + ∑ e : Fin 4096, (if v6 (ix2 (0 : Fin 1) e) = BitVec.ofNat 32 ((i 0).val * 512 + r.val) then (1 : EReal) else 0)
              * v20 (ix2 e (⟨64 + a.val, by have := a.isLt; omega⟩ : Fin 128)))
          + ∑ b : Fin 64, v29 (ix2 r b) * v30 (ix2 b a))
        + ∑ q : Fin 8, v33 (ix2 (0 : Fin 1) q) * v34 (ix2 q a) := by
  unfold k1_pay2
  simp only [addf_apply, PlainDot.matmul_zero_apply dot_S512x4096_S4096x64_S512x64_1_0_0_1_n_n ⟨rfl, rfl, rfl, rfl, rfl, rfl⟩, PlainDot.matmul_zero_apply dot_S512x64_S64x64_S512x64_1_0_0_1_n_n ⟨rfl, rfl, rfl, rfl, rfl, rfl⟩,
    PlainDot.matmul_zero_apply dot_S1x8_S8x64_S1x64_1_0_0_1_n_n ⟨rfl, rfl, rfl, rfl, rfl, rfl⟩, broadcastTo_1b_ab_apply, broadcastTo_a1_ab_apply, shapeCast_self,
    truncf_apply, sitofp_apply, extui_apply, cmpi_apply', addi_apply', broadcast_apply, slice2_axis1_eq, Nat.zero_add, sitofp_cmpi_eq]
  rw [rowWord]

-- The stored value at (r, d): bias, clamp at zero, the 64×64 product, bias, clamp at zero.
theorem pay1_apply (v39 : FVec Ideal S512x64 .f32) (v40 : Vec Ideal S1x64 .f32) (v46 : Vec Ideal S64x64 .f32) (v48 : Vec Ideal S1x64 .f32)
    (r : Fin 512) (d : Fin 64) :
    k1_pay1 (F := Ideal) v39 v40 v46 v48 (ix2 r d)
      = max ((∑ a : Fin 64, max (v39 (ix2 r a) + v40 (ix2 (0 : Fin 1) a)) 0 * v46 (ix2 a d)) + v48 (ix2 (0 : Fin 1) d)) 0 := by
  have hz : (Scalar.ofBits (F := Ideal) .f32 0x00000000#32 : EReal) = 0 := Ideal.ofBits_zero_f32
  unfold k1_pay1
  simp only [maximumf_apply, addf_apply, PlainDot.matmul_zero_apply dot_S512x64_S64x64_S512x64_1_0_0_1_n_n ⟨rfl, rfl, rfl, rfl, rfl, rfl⟩, broadcastTo_1b_ab_apply, shapeCast_self, broadcast_apply, hz]

end Cert.KernelIdeal.HandValue

end
-- ==== Proof.KernelIdeal.R1Value.lean ====
import proofs.«430600_j30915174596644_3_alg».proof.Proof.KernelIdeal.R1Pay

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

abbrev arr0 (c : Dev nD) : S8192x64.Idx → EReal := V c main_arg0
abbrev arr1 (c : Dev nD) : S1x4096.Idx → BitVec 32 := V c main_v30
abbrev arr2 (c : Dev nD) : S1x4096.Idx → BitVec 32 := V c main_v31
abbrev arr3 (c : Dev nD) : S4096x128.Idx → EReal := V c main_v29_1
abbrev arr4 (c : Dev nD) : S64x64.Idx → EReal := V c main_v23
abbrev arr5 (c : Dev nD) : S8x64.Idx → EReal := V c main_v26
abbrev arr6 (c : Dev nD) : S1x8.Idx → EReal := V c main_arg2
abbrev arr7 (c : Dev nD) : S1x64.Idx → EReal := V c main_v19
abbrev arr8 (c : Dev nD) : S64x64.Idx → EReal := V c main_arg11
abbrev arr9 (c : Dev nD) : S1x64.Idx → EReal := V c main_v20

section
variable (A0 : S8192x64.Idx → EReal) (A1 A2 : S1x4096.Idx → BitVec 32) (A3 : S4096x128.Idx → EReal) (A4 : S64x64.Idx → EReal)
  (A5 : S8x64.Idx → EReal) (A6 : S1x8.Idx → EReal) (A7 : S1x64.Idx → EReal) (A8 : S64x64.Idx → EReal) (A9 : S1x64.Idx → EReal)

-- Row n of the result at column d: the rows of A3 whose entry of A1 (of A2) is the word of n, summed; two products; bias and clamp, twice.
def nodeRow (n : Fin 8192) (d : Fin 64) : EReal :=
  max ((∑ a : Fin 64,
        max (((((∑ e : Fin 4096, (if A1 (ix2 (0 : Fin 1) e) = BitVec.ofNat 32 n.val then (1 : EReal) else 0)
                    * A3 (ix2 e (⟨a.val, Nat.lt_of_lt_of_le a.isLt (by decide)⟩ : Fin 128)))
                + ∑ e : Fin 4096, (if A2 (ix2 (0 : Fin 1) e) = BitVec.ofNat 32 n.val then (1 : EReal) else 0)
                    * A3 (ix2 e (⟨64 + a.val, by have := a.isLt; omega⟩ : Fin 128)))
                + ∑ b : Fin 64, A0 (ix2 n b) * A4 (ix2 b a))
              + ∑ q : Fin 8, A6 (ix2 (0 : Fin 1) q) * A5 (ix2 q a))
            + A7 (ix2 (0 : Fin 1) a)) 0
          * A8 (ix2 a d))
      + A9 (ix2 (0 : Fin 1) d)) 0

-- The output block at (r, d) is row n of the node update, when n is the tile's first row plus r and the node block's row r is the array's row n.
theorem out_eq_nodeRow (i : grid1.Coords) (x0 : Vec Ideal S512x64 .f32) (r : Fin 512) (d : Fin 64) (n : Fin 8192)
    (hn : (i 0).val * 512 + r.val = n.val) (h0 : ∀ b : Fin 64, x0 (ix2 r b) = A0 (ix2 n b)) :
    out1_10 (F := Ideal) i x0 A1 A2 A3 A4 A5 A6 A7 A8 A9 (ix2 r d) = nodeRow A0 A1 A2 A3 A4 A5 A6 A7 A8 A9 n d := by
  have hz : (![0, 0] : Fin 2 → ℕ) = fun _ => 0 := by funext a; match a with | ⟨0, _⟩ => rfl | ⟨1, _⟩ => rfl
  unfold out1_10 nodeRow
  rw [View.canon_unit_zero hz]
  simp only [View.ld_unit_zero (S := S512x64) hz, View.ld_unit_zero (S := S1x4096) hz, View.ld_unit_zero (S := S4096x128) hz, View.ld_unit_zero (S := S64x64) hz, View.ld_unit_zero (S := S8x64) hz, View.ld_unit_zero (S := S1x8) hz, View.ld_unit_zero (S := S1x64) hz]
  rw [pay1_apply]
  simp only [pay2_apply, h0, hn]

end

abbrev nodeArr (c : Dev nD) : S8192x64.Idx → EReal := fun j =>
  nodeRow (arr0 V c) (arr1 V c) (arr2 V c) (arr3 V c) (arr4 V c) (arr5 V c) (arr6 V c) (arr7 V c) (arr8 V c) (arr9 V c) (j 0) (j 1)

theorem coords1 (t : Fin grid1.N) : ((grid1.coords t) 0).val = t.val := by revert t; decide +kernel

-- At point t windows 0 and 10 read rows 512·t … 512·t + 511 of their arrays; every other window reads its whole array.
theorem idx1_0 (t : Fin grid1.N) : win1_0.index t (0 : Fin 2) = t.val ∧ win1_0.index t (1 : Fin 2) = 0 := by revert t; decide +kernel
theorem idx1_10 (t : Fin grid1.N) : win1_10.index t (0 : Fin 2) = t.val ∧ win1_10.index t (1 : Fin 2) = 0 := by revert t; decide +kernel
theorem idx1 : ∀ w : Fin 11, w ≠ 0 → w ≠ 10 → ∀ (t : Fin grid1.N) (a : Fin (win1 w).shape.rank), (win1 w).index t a = 0 := by
  decide +kernel

section
variable (c : Dev nD) (t : Fin cfg1.N)

-- A block at index zero is its whole array.
theorem iblk1_1_eq : iblk1 V c 1 t = arr1 V c :=
  funext fun y => congrArg (V c main_v30) (funext fun a => Fin.ext (win1_1.rect_emb_val_of_index_zero t a (idx1 1 (by decide) (by decide) t a) y))
theorem iblk1_2_eq : iblk1 V c 2 t = arr2 V c :=
  funext fun y => congrArg (V c main_v31) (funext fun a => Fin.ext (win1_2.rect_emb_val_of_index_zero t a (idx1 2 (by decide) (by decide) t a) y))
theorem iblk1_3_eq : iblk1 V c 3 t = arr3 V c :=
  funext fun y => congrArg (V c main_v29_1) (funext fun a => Fin.ext (win1_3.rect_emb_val_of_index_zero t a (idx1 3 (by decide) (by decide) t a) y))
theorem iblk1_4_eq : iblk1 V c 4 t = arr4 V c :=
  funext fun y => congrArg (V c main_v23) (funext fun a => Fin.ext (win1_4.rect_emb_val_of_index_zero t a (idx1 4 (by decide) (by decide) t a) y))
theorem iblk1_5_eq : iblk1 V c 5 t = arr5 V c :=
  funext fun y => congrArg (V c main_v26) (funext fun a => Fin.ext (win1_5.rect_emb_val_of_index_zero t a (idx1 5 (by decide) (by decide) t a) y))
theorem iblk1_6_eq : iblk1 V c 6 t = arr6 V c :=
  funext fun y => congrArg (V c main_arg2) (funext fun a => Fin.ext (win1_6.rect_emb_val_of_index_zero t a (idx1 6 (by decide) (by decide) t a) y))
theorem iblk1_7_eq : iblk1 V c 7 t = arr7 V c :=
  funext fun y => congrArg (V c main_v19) (funext fun a => Fin.ext (win1_7.rect_emb_val_of_index_zero t a (idx1 7 (by decide) (by decide) t a) y))
theorem iblk1_8_eq : iblk1 V c 8 t = arr8 V c :=
  funext fun y => congrArg (V c main_arg11) (funext fun a => Fin.ext (win1_8.rect_emb_val_of_index_zero t a (idx1 8 (by decide) (by decide) t a) y))
theorem iblk1_9_eq : iblk1 V c 9 t = arr9 V c :=
  funext fun y => congrArg (V c main_v20) (funext fun a => Fin.ext (win1_9.rect_emb_val_of_index_zero t a (idx1 9 (by decide) (by decide) t a) y))

-- The node block of point t at (r, b) is the array at row 512·t + r.
theorem iblk1_0_apply (r : Fin 512) (b : Fin 64) (n : Fin 8192) (hn : t.val * 512 + r.val = n.val) :
    (iblk1 V c 0 t : S512x64.Idx → EReal) (ix2 r b) = arr0 V c (ix2 n b) := by
  refine congrArg (V c main_arg0) (funext fun a => Fin.ext ?_)
  match a with
  | ⟨0, _⟩ => show win1_0.index t (0 : Fin 2) * 512 + 1 * r.val = n.val; rw [(idx1_0 t).1]; omega
  | ⟨1, _⟩ => show win1_0.index t (1 : Fin 2) * 64 + 1 * b.val = b.val; rw [(idx1_0 t).2]; omega

-- What point t leaves for the output array is block t of the row-by-row result.
theorem flushed1_10_eq :
    (dat1 (F := Ideal) V c).flushed 10 t = ((cfg1.win 10).blk t).view.read (Elt Ideal) (nodeArr V c) := by
  show (cfg1.win 10).cut (grid1.coords t) ((dat1 (F := Ideal) V c).after 10 t) = _
  rw [after1_10, iblk1_1_eq, iblk1_2_eq, iblk1_3_eq, iblk1_4_eq, iblk1_5_eq, iblk1_6_eq, iblk1_7_eq, iblk1_8_eq, iblk1_9_eq]
  funext j
  obtain ⟨r, d, rfl⟩ : ∃ (r : Fin 512) (d : Fin 64), j = ix2 r d := ⟨j 0, j 1, eq_ix2 j⟩
  have hr := r.isLt
  have ht : t.val < 16 := Nat.lt_of_lt_of_eq t.isLt N_1
  have e0 : (((cfg1.win 10).blk t).view.emb (ix2 r d) : S8192x64.Idx) 0 = (⟨t.val * 512 + r.val, by omega⟩ : Fin 8192) := by
    apply Fin.ext
    show win1_10.index t (0 : Fin 2) * 512 + 1 * r.val = t.val * 512 + r.val
    rw [(idx1_10 t).1]; omega
  have e1 : (((cfg1.win 10).blk t).view.emb (ix2 r d) : S8192x64.Idx) 1 = d := by
    apply Fin.ext
    show win1_10.index t (1 : Fin 2) * 64 + 1 * d.val = d.val
    rw [(idx1_10 t).2]; omega
  exact (out_eq_nodeRow _ _ _ _ _ _ _ _ _ _ (grid1.coords t) _ r d _ (by rw [coords1 t]) fun b => iblk1_0_apply V c t r b _ rfl).trans
    (congrArg₂ (nodeRow _ _ _ _ _ _ _ _ _ _) e0.symm e1.symm)

end

-- Row n lies in the block of point n / 512, and every point's block reaches the array.
theorem cover1_10_arr (i : S8192x64.Idx) : ∃ t : Fin cfg1.N, (cfg1.win 10).flush t = true ∧ i ∈ ((cfg1.win 10).blk t).view.set := by
  have h0 : (i 0).val < 8192 := (i 0).isLt
  have hq : (i 0).val / 512 < cfg1.N := Nat.lt_of_lt_of_eq (by omega : (i 0).val / 512 < 16) N_1.symm
  refine ⟨⟨(i 0).val / 512, hq⟩, flush1_10 _, ?_⟩
  show i ∈ ((View.whole main_v32).slice (win1_10.rect ⟨(i 0).val / 512, hq⟩)).set
  rw [View.set_slice_whole, Rect.mem_set_unit]
  intro a
  match a with
  | ⟨0, _⟩ =>
    show win1_10.index ⟨(i 0).val / 512, hq⟩ (0 : Fin 2) * 512 ≤ (i 0).val ∧ (i 0).val < win1_10.index ⟨(i 0).val / 512, hq⟩ (0 : Fin 2) * 512 + 512
    rw [(idx1_10 _).1]; show (i 0).val / 512 * 512 ≤ (i 0).val ∧ (i 0).val < (i 0).val / 512 * 512 + 512; omega
  | ⟨1, _⟩ =>
    show win1_10.index ⟨(i 0).val / 512, hq⟩ (1 : Fin 2) * 64 ≤ (i 1).val ∧ (i 1).val < win1_10.index ⟨(i 0).val / 512, hq⟩ (1 : Fin 2) * 64 + 64
    rw [(idx1_10 _).2]; have h1 : (i 1).val < 64 := (i 1).isLt; omega

theorem arrAt1_10_eq (c : Dev nD) : (dat1 (F := Ideal) V c).arrAt 10 cfg1.N = nodeArr V c :=
  (dat1 (F := Ideal) V c).arrAt_eq_of_cover 10 (nodeArr V c) (fun t _ => flushed1_10_eq V c t) cover1_10_arr

-- The output array after the region at (n, d), over the region's input arrays.
theorem arrAt1_10 (c : Dev nD) (n : Fin 8192) (d : Fin 64) :
    (dat1 (F := Ideal) V c).arrAt 10 cfg1.N (ix2 n d)
      = max ((∑ a : Fin 64,
            max (((((∑ e : Fin 4096, (if arr1 V c (ix2 (0 : Fin 1) e) = BitVec.ofNat 32 n.val then (1 : EReal) else 0)
                        * arr3 V c (ix2 e (⟨a.val, Nat.lt_of_lt_of_le a.isLt (by decide)⟩ : Fin 128)))
                    + ∑ e : Fin 4096, (if arr2 V c (ix2 (0 : Fin 1) e) = BitVec.ofNat 32 n.val then (1 : EReal) else 0)
                        * arr3 V c (ix2 e (⟨64 + a.val, by have := a.isLt; omega⟩ : Fin 128)))
                    + ∑ b : Fin 64, arr0 V c (ix2 n b) * arr4 V c (ix2 b a))
                  + ∑ q : Fin 8, arr6 V c (ix2 (0 : Fin 1) q) * arr5 V c (ix2 q a))
                + arr7 V c (ix2 (0 : Fin 1) a)) 0
              * arr8 V c (ix2 a d))
          + arr9 V c (ix2 (0 : Fin 1) d)) 0 :=
  congrFun (arrAt1_10_eq V c) _

end Cert.KernelIdeal.HandValue

end
-- ==== Proof.KernelIdeal.KernelValue.lean ====
import proofs.«430600_j30915174596644_3_alg».proof.Proof.KernelIdeal.Main
import proofs.«430600_j30915174596644_3_alg».proof.Proof.KernelIdeal.ChainRead
import proofs.«430600_j30915174596644_3_alg».proof.Proof.KernelIdeal.HostIdx
import proofs.«430600_j30915174596644_3_alg».proof.Proof.KernelIdeal.R0Value
import proofs.«430600_j30915174596644_3_alg».proof.Proof.KernelIdeal.R1Value

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem

theorem newEdges_congr {X X' : Fin 4096 → Fin 152 → EReal} {W1 W1' : Fin 152 → Fin 4096 → EReal} {b1 b1' : Fin 4096 → EReal}
    {W2 W2' : Fin 4096 → Fin 4096 → EReal} {b2 b2' : Fin 4096 → EReal} (hX : ∀ e a, X e a = X' e a)
    (hW1 : ∀ a k, W1 a k = W1' a k) (hb1 : ∀ k, b1 k = b1' k) (hW2 : ∀ k j, W2 k j = W2' k j) (hb2 : ∀ j, b2 j = b2' j)
    (e j : Fin 4096) : GraphNet.newEdges X W1 b1 W2 b2 e j = GraphNet.newEdges X' W1' b1' W2' b2' e j := by
  rw [funext₂ hX, funext₂ hW1, funext hb1, funext₂ hW2, funext hb2]

-- A one-hot entry that compares a raw id word with a node's number marks the edges whose id reads, signed, as that number.
theorem onehot_eq {w w' : BitVec 32} (h : w = w') (n : Fin 8192) {P : Prop} [Decidable P] (hP : P ↔ w'.toInt = (n.val : ℤ)) :
    (if w = BitVec.ofNat 32 n.val then (1 : EReal) else 0) = if P then 1 else 0 :=
  if_congr (h ▸ (word_eq_iff _ n).trans hP.symm) rfl rfl

section Results

variable (m : (ℓ : Loc nD τ sig) → Buf (Elt Ideal) ℓ) (ρ : Dev nD → PrngReg) (c : Dev nD)

abbrev aNodes : S8192x64.Idx → EReal := m ((c : Thread nD τ).loc main_arg0)
abbrev aEdges : S4096x16.Idx → EReal := m ((c : Thread nD τ).loc main_arg1)
abbrev aGlob : S1x8.Idx → EReal := m ((c : Thread nD τ).loc main_arg2)
abbrev aSnd : S4096.Idx → BitVec 32 := m ((c : Thread nD τ).loc main_arg3)
abbrev aRcv : S4096.Idx → BitVec 32 := m ((c : Thread nD τ).loc main_arg4)
abbrev aW1 : S152x4096.Idx → EReal := m ((c : Thread nD τ).loc main_arg5)
abbrev aB1 : S4096.Idx → EReal := m ((c : Thread nD τ).loc main_arg6)
abbrev aW2 : S4096x4096.Idx → EReal := m ((c : Thread nD τ).loc main_arg7)
abbrev aB2 : S4096.Idx → EReal := m ((c : Thread nD τ).loc main_arg8)
abbrev aWn : S8264x64.Idx → EReal := m ((c : Thread nD τ).loc main_arg9)
abbrev aNb1 : S64.Idx → EReal := m ((c : Thread nD τ).loc main_arg10)
abbrev aWn2 : S64x64.Idx → EReal := m ((c : Thread nD τ).loc main_arg11)
abbrev aNb2 : S64.Idx → EReal := m ((c : Thread nD τ).loc main_arg12)

abbrev D0 : ((c : Dev nD) → (b : Ref sig .tc) → Buf (Elt Ideal) ((c : Thread nD τ).loc b)) → (c : Dev nD) →
    Pipeline.Dat τ (Elt Ideal) Unit ℕ (UR sig nD τ) ℕ cfg0 c := fun V c => dat0 V c
abbrev D1 : ((c : Dev nD) → (b : Ref sig .tc) → Buf (Elt Ideal) ((c : Thread nD τ).loc b)) → (c : Dev nD) →
    Pipeline.Dat τ (Elt Ideal) Unit ℕ (UR sig nD τ) ℕ cfg1 c := fun V c => dat1 V c

def kX (e : Fin 4096) (a : Fin 152) : EReal :=
  GraphNet.edgeIn (fun e a => aEdges m c (ix2 e a)) (fun e a => nodeRows (F := Ideal) (aNodes m c) (aSnd m c) (ix2 e a))
    (fun e a => nodeRows (F := Ideal) (aNodes m c) (aRcv m c) (ix2 e a)) (fun q => aGlob m c (ix2 (0 : Fin 1) q)) e a

def kNE (e j : Fin 4096) : EReal :=
  GraphNet.newEdges (kX m c) (fun a k => aW1 m c (ix2 a k)) (fun k => aB1 m c (ix1 k)) (fun k j => aW2 m c (ix2 k j))
    (fun j => aB2 m c (ix1 j)) e j

-- Read at an entry, each input array of the first launch is the argument's entry.
theorem ne_launch (e j : Fin 4096) :
    GraphNet.newEdges (eX (V1 m ρ) c) (eW1 (V1 m ρ) c) (eb1 (V1 m ρ) c) (eW2 (V1 m ρ) c) (eb2 (V1 m ρ) c) e j = kNE m c e j :=
  newEdges_congr (fun e a => (congrFun (V1_v16 m ρ c) (ix2 e a)).trans (edgeRows_apply _ _ _ _ _ e a))
    (fun a k => congrFun (V1_v21 m ρ c) (ix2 a k))
    (fun k => (congrFun (V1_v17 m ρ c) (ix2 (0 : Fin 1) k)).trans (shapeCast_a_1a_apply _ _ 0 k))
    (fun k j => congrFun (V1_v22 m ρ c) (ix2 k j))
    (fun j => (congrFun (V1_v18 m ρ c) (ix2 (0 : Fin 1) j)).trans (shapeCast_a_1a_apply _ _ 0 j)) e j

theorem kernel_edges (e j : Fin 4096) :
    (endVal m ρ c (Proc.devRef .tc main_v29_0) : S4096x4096.Idx → EReal) (ix2 e j) = kNE m c e j :=
  (congrFun (W4_v29_0 m ρ D0 D1 c) (ix2 e j)).trans ((congrFun (final6 (V1 m ρ) c) _).trans (ne_launch m ρ c e j))

-- A column of the first launch's second result: the edge's new features times that column of the weight rows laid side by side.
theorem proj_col (e : Fin 4096) (col : Fin 128) (w : Fin 4096 → EReal)
    (hw : ∀ j, projRows (F := Ideal) (aWn m c) (ix2 j col) = w j) :
    ((dat0 (F := Ideal) (V1 m ρ) c).arrAt 7 cfg0.N : S4096x128.Idx → EReal) (ix2 e col) = ∑ j : Fin 4096, kNE m c e j * w j := by
  refine (congrFun (final7 (V1 m ρ) c) _).trans ?_
  show (∑ j : Fin 4096, GraphNet.newEdges (eX (V1 m ρ) c) (eW1 (V1 m ρ) c) (eb1 (V1 m ρ) c) (eW2 (V1 m ρ) c) (eb2 (V1 m ρ) c) e j
      * eW3 (V1 m ρ) c j col) = _
  exact Finset.sum_congr rfl fun j _ => congrArg₂ (· * ·) (ne_launch m ρ c e j) ((congrFun (V1_v28 m ρ c) _).trans (hw j))

-- The node result at an entry, for any incidence relations that say a raw id word reads, signed, as the node's number.
theorem kernel_nodes (S R : Fin 8192 → Fin 4096 → Prop) [∀ n e, Decidable (S n e)] [∀ n e, Decidable (R n e)]
    (hS : ∀ n e, S n e ↔ (aSnd m c (ix1 e)).toInt = (n.val : ℤ)) (hR : ∀ n e, R n e ↔ (aRcv m c (ix1 e)).toInt = (n.val : ℤ))
    (n : Fin 8192) (d : Fin 64) :
    (endVal m ρ c (Proc.devRef .tc main_v32) : S8192x64.Idx → EReal) (ix2 n d)
      = GraphNet.newNodes
          (GraphNet.preProj (kNE m c) S R (fun n a => aNodes m c (ix2 n a)) (fun j d => aWn m c (ix2 j d)) (fun q => aGlob m c (ix2 (0 : Fin 1) q)))
          (fun a => aNb1 m c (ix1 a)) (fun a d => aWn2 m c (ix2 a d)) (fun d => aNb2 m c (ix1 d)) n d := by
  refine (congrFun (W4_v32 m ρ D0 D1 c) (ix2 n d)).trans ((arrAt1_10 (V3 m ρ D0) c n d).trans ?_)
  unfold GraphNet.newNodes GraphNet.preProj
  simp only [
    show ∀ n b, arr0 (V3 m ρ D0) c (ix2 n b) = aNodes m c (ix2 n b) from fun n b => congrFun (V3_arg0 m ρ D0 c) _,
    show ∀ (n : Fin 8192) e, (if arr1 (V3 m ρ D0) c (ix2 (0 : Fin 1) e) = BitVec.ofNat 32 n.val then (1 : EReal) else 0) = if S n e then 1 else 0 from
      fun n e => onehot_eq ((congrFun (V3_v30 m ρ D0 c) _).trans (shapeCast_a_1a_apply _ _ 0 e)) n (hS n e),
    show ∀ (n : Fin 8192) e, (if arr2 (V3 m ρ D0) c (ix2 (0 : Fin 1) e) = BitVec.ofNat 32 n.val then (1 : EReal) else 0) = if R n e then 1 else 0 from
      fun n e => onehot_eq ((congrFun (V3_v31 m ρ D0 c) _).trans (shapeCast_a_1a_apply _ _ 0 e)) n (hR n e),
    show ∀ e (a : Fin 64), arr3 (V3 m ρ D0) c (ix2 e (⟨a.val, Nat.lt_of_lt_of_le a.isLt (by decide)⟩ : Fin 128))
        = GraphNet.projSent (kNE m c) (fun j d => aWn m c (ix2 j d)) e a from
      fun e a => (congrFun (V3_v29_1 m ρ D0 c) _).trans (proj_col m ρ c e _ _ fun j => projRows_lo _ j a),
    show ∀ e (a : Fin 64), arr3 (V3 m ρ D0) c (ix2 e (⟨64 + a.val, by have := a.isLt; omega⟩ : Fin 128))
        = GraphNet.projRecv (kNE m c) (fun j d => aWn m c (ix2 j d)) e a from
      fun e a => (congrFun (V3_v29_1 m ρ D0 c) _).trans (proj_col m ρ c e _ _ fun j => projRows_hi _ j a),
    show ∀ b a, arr4 (V3 m ρ D0) c (ix2 b a) = GraphNet.wOwn (fun j d => aWn m c (ix2 j d)) b a from
      fun b a => (congrFun (V3_v23 m ρ D0 c) _).trans (slice2_axis0_apply 0 _ _ b a _ (Nat.zero_add _).symm),
    show ∀ q a, arr5 (V3 m ρ D0) c (ix2 q a) = GraphNet.wGlob (fun j d => aWn m c (ix2 j d)) q a from
      fun q a => (congrFun (V3_v26 m ρ D0 c) _).trans (slice2_axis0_apply 8256 _ _ q a _ rfl),
    show ∀ q, arr6 (V3 m ρ D0) c (ix2 (0 : Fin 1) q) = aGlob m c (ix2 (0 : Fin 1) q) from fun q => congrFun (V3_arg2 m ρ D0 c) _,
    show ∀ a, arr7 (V3 m ρ D0) c (ix2 (0 : Fin 1) a) = aNb1 m c (ix1 a) from
      fun a => (congrFun (V3_v19 m ρ D0 c) _).trans (shapeCast_a_1a_apply _ _ 0 a),
    show ∀ a d, arr8 (V3 m ρ D0) c (ix2 a d) = aWn2 m c (ix2 a d) from fun a d => congrFun (V3_arg11 m ρ D0 c) _,
    show ∀ d, arr9 (V3 m ρ D0) c (ix2 (0 : Fin 1) d) = aNb2 m c (ix1 d) from
      fun d => (congrFun (V3_v20 m ρ D0 c) _).trans (shapeCast_a_1a_apply _ _ 0 d)]

end Results

end Cert.KernelIdeal.HandValue

end
-- ==== Proof.RefRead.lean ====
import proofs.«430600_j30915174596644_3_alg».proof.Proof.Gen.ReferenceIdeal.Run
import proofs.«430600_j30915174596644_3_alg».proof.Proof.Gen.ReferenceIdeal.Read
import proofs.«430600_j30915174596644_3_alg».proof.Proof.Spec
import proofs.«430600_j30915174596644_3_alg».proof.Proof.LibPlainDot
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx
open scoped BigOperators

variable (x0 : (⟨S8192x64, .f32⟩ : BufTy).Contents (Elt Ideal)) (x1 : (⟨S4096x16, .f32⟩ : BufTy).Contents (Elt Ideal))
  (x2 : (⟨S1x8, .f32⟩ : BufTy).Contents (Elt Ideal)) (x3 x4 : (⟨S4096, .i32⟩ : BufTy).Contents (Elt Ideal))
  (x5 : (⟨S152x4096, .f32⟩ : BufTy).Contents (Elt Ideal)) (x6 : (⟨S4096, .f32⟩ : BufTy).Contents (Elt Ideal))
  (x7 : (⟨S4096x4096, .f32⟩ : BufTy).Contents (Elt Ideal)) (x8 : (⟨S4096, .f32⟩ : BufTy).Contents (Elt Ideal))
  (x9 : (⟨S8264x64, .f32⟩ : BufTy).Contents (Elt Ideal)) (x10 : (⟨S64, .f32⟩ : BufTy).Contents (Elt Ideal))
  (x11 : (⟨S64x64, .f32⟩ : BufTy).Contents (Elt Ideal)) (x12 : (⟨S64, .f32⟩ : BufTy).Contents (Elt Ideal))

def X (e : Fin 4096) (a : Fin 152) : EReal :=
  GraphNet.edgeIn (fun e a => x1 (ix2 e a)) (fun e a => val_main_v8 (F := Ideal) x0 x3 (ix2 e a))
    (fun e a => val_main_v15 (F := Ideal) x0 x4 (ix2 e a)) (fun q => x2 (ix2 0 q)) e a

def NE (e j : Fin 4096) : EReal :=
  GraphNet.newEdges (X x0 x1 x2 x3 x4) (fun a k => x5 (ix2 a k)) (fun k => x6 (ix1 k)) (fun k j => x7 (ix2 k j))
    (fun j => x8 (ix1 j)) e j

def S (n : Fin 8192) (e : Fin 4096) : Prop := BitVec.toInt (x3 (ix1 e)) = (n.val : ℤ)
def R (n : Fin 8192) (e : Fin 4096) : Prop := BitVec.toInt (x4 (ix1 e)) = (n.val : ℤ)

instance (n : Fin 8192) (e : Fin 4096) : Decidable (S x3 n e) := by unfold S; infer_instance
instance (n : Fin 8192) (e : Fin 4096) : Decidable (R x4 n e) := by unfold R; infer_instance

theorem lidx17 (e k : Fin 4096) (a : Fin 152) : lidx_main_v17 (ix2 e k) a = ix2 e a := eq_ix2 _
theorem ridx17 (e k : Fin 4096) (a : Fin 152) : ridx_main_v17 (ix2 e k) a = ix2 a k := eq_ix2 _
theorem bias19 (e k : Fin 4096) : idx_main_v18 (idx_main_v19 (ix2 e k)) = ix1 k := eq_ix1 _
theorem lidx22 (e j k : Fin 4096) : lidx_main_v22 (ix2 e j) k = ix2 e k := eq_ix2 _
theorem ridx22 (e j k : Fin 4096) : ridx_main_v22 (ix2 e j) k = ix2 k j := eq_ix2 _
theorem bias24 (e j : Fin 4096) : idx_main_v23 (idx_main_v24 (ix2 e j)) = ix1 j := eq_ix1 _
theorem lidx35 (n : Fin 8192) (d : Fin 64) (k : Fin 8264) : lidx_main_v35 (ix2 n d) k = ix2 n k := eq_ix2 _
theorem ridx35 (n : Fin 8192) (d : Fin 64) (k : Fin 8264) : ridx_main_v35 (ix2 n d) k = ix2 k d := eq_ix2 _
theorem bias37 (n : Fin 8192) (d : Fin 64) : idx_main_v36 (idx_main_v37 (ix2 n d)) = ix1 d := eq_ix1 _
theorem lidx40 (n : Fin 8192) (d a : Fin 64) : lidx_main_v40 (ix2 n d) a = ix2 n a := eq_ix2 _
theorem ridx40 (n : Fin 8192) (d a : Fin 64) : ridx_main_v40 (ix2 n d) a = ix2 a d := eq_ix2 _
theorem bias42 (n : Fin 8192) (d : Fin 64) : idx_main_v41 (idx_main_v42 (ix2 n d)) = ix1 d := eq_ix1 _
theorem idx28 (e : Fin 4096) : idx_main_v28 (ix2 e (0 : Fin 1)) = ix1 e := eq_ix1 _
theorem idx31 (e : Fin 4096) : idx_main_v31 (ix2 e (0 : Fin 1)) = ix1 e := eq_ix1 _
-- The globals' one row, spread over the edges or over the nodes, read at a row.
theorem glob1 (e : Fin 4096) (q : Fin 8) : idx_main_v0 (idx_main_v1 (ix2 e q)) = ix2 (0 : Fin 1) q :=
  funext fun b => Fin.ext (by match b with | ⟨0, _⟩ => rfl | ⟨1, _⟩ => exact Nat.mod_eq_of_lt q.isLt)
theorem glob33 (n : Fin 8192) (q : Fin 8) : idx_main_v0 (idx_main_v33 (ix2 n q)) = ix2 (0 : Fin 1) q :=
  funext fun b => Fin.ext (by match b with | ⟨0, _⟩ => rfl | ⟨1, _⟩ => exact Nat.mod_eq_of_lt q.isLt)

-- The edges' input rows: each entry comes from the piece its column falls in.
theorem edgeIn_apply (e : Fin 4096) (a : Fin 152) :
    val_main_v16 (F := Ideal) x0 x1 x2 x3 x4 (ix2 e a) = X x0 x1 x2 x3 x4 e a := by
  have ha := a.isLt
  unfold X GraphNet.edgeIn val_main_v16
  by_cases h16 : a.val < 16
  · rw [dif_pos h16]
    exact PlainCat.cols_apply _ _ 0 (by simp) x1 rfl 0 rfl e a ⟨a.val, h16⟩ (Nat.zero_add _)
  by_cases h80 : a.val < 80
  · rw [dif_neg h16, dif_pos h80]
    exact PlainCat.cols_apply _ _ 1 (by simp) (val_main_v8 (F := Ideal) x0 x3) rfl 16 rfl e a ⟨a.val - 16, by omega⟩
      (by show 16 + (a.val - 16) = a.val; omega)
  by_cases h144 : a.val < 144
  · rw [dif_neg h16, dif_neg h80, dif_pos h144]
    exact PlainCat.cols_apply _ _ 2 (by simp) (val_main_v15 (F := Ideal) x0 x4) rfl 80 rfl e a ⟨a.val - 80, by omega⟩
      (by show 80 + (a.val - 80) = a.val; omega)
  rw [dif_neg h16, dif_neg h80, dif_neg h144]
  refine (PlainCat.cols_apply _ _ 3 (by simp) (val_main_v1 (F := Ideal) x2) rfl 144 rfl e a ⟨a.val - 144, by omega⟩
    (by show 144 + (a.val - 144) = a.val; omega)).trans ?_
  rw [val_main_v1_apply, val_main_v0_apply, glob1]

theorem hidden_apply (e k : Fin 4096) :
    val_main_v21 (F := Ideal) x0 x1 x2 x3 x4 x5 x6 (ix2 e k)
      = GraphNet.hidden (X x0 x1 x2 x3 x4) (fun a k => x5 (ix2 a k)) (fun k => x6 (ix1 k)) e k := by
  rw [val_main_v21_apply, val_main_v20_apply, val_main_v17_apply, val_main_v19_apply, val_main_v18_apply,
    val_main_call0_v0_apply, val_main_call0_cst_apply, bias19]
  simp only [lidx17, ridx17, edgeIn_apply, Ideal.maximumf_def, Ideal.addf_def, Ideal.ofBits_def, Ideal.ofBits_zero_f32]
  rfl

theorem newEdges_apply (e j : Fin 4096) :
    val_main_v26 (F := Ideal) x0 x1 x2 x3 x4 x5 x6 x7 x8 (ix2 e j) = NE x0 x1 x2 x3 x4 x5 x6 x7 x8 e j := by
  rw [val_main_v26_apply, val_main_v25_apply, val_main_v22_apply, val_main_v24_apply, val_main_v23_apply,
    val_main_call1_v0_apply, val_main_call1_cst_apply, bias24]
  simp only [lidx22, ridx22, hidden_apply, Ideal.maximumf_def, Ideal.addf_def, Ideal.ofBits_def, Ideal.ofBits_zero_f32]
  rfl

-- An update lands on a result element exactly when, on every axis, its start plus its offset is the element's coordinate.
theorem resultIdx?_eq_some {s si u : Shape} (d : ScatterDims s si u) {w : ℕ} (j : u.Idx) (idx : IVec si w) (i : s.Idx) :
    d.resultIdx? j idx = some i ↔ ∀ a, d.start j idx a + (d.window j a : ℤ) = ((i a).val : ℤ) := by
  unfold ScatterDims.resultIdx?
  split
  · next h =>
    rw [Option.some.injEq, funext_iff]
    refine forall_congr' fun a => ?_
    have := h a
    simp only [Fin.ext_iff]
    omega
  · next h =>
    exact ⟨nofun, fun hh => absurd (fun a => by have := hh a; have := (i a).isLt; omega) h⟩

theorem scatter_start0 (e c' : Fin 4096) (idx : IVec S4096x1 32) :
    scatter_S8192x4096_S4096x1_S4096x4096_1_0_0_1.start (ix2 e c') idx 0 = (idx (ix2 e (0 : Fin 1))).toInt := by
  unfold ScatterDims.start
  rw [dif_pos (show (0 : Fin S8192x4096.rank) ∈ scatter_S8192x4096_S4096x1_S4096x4096_1_0_0_1.scatterDimsToOperandDims from List.mem_singleton.mpr rfl)]
  congr 2
  funext b
  exact Fin.ext (by match b with | ⟨0, _⟩ => rfl | ⟨1, _⟩ => rfl)

-- Here: the row starts at the edge's index word read signed (unclamped, dropped when outside), the column is kept.
theorem scatter_lands_iff (idx : IVec S4096x1 32) (e c' : Fin 4096) (n : Fin 8192) (c : Fin 4096) :
    scatter_S8192x4096_S4096x1_S4096x4096_1_0_0_1.resultIdx? (ix2 e c') idx = some (ix2 n c)
      ↔ (idx (ix2 e (0 : Fin 1))).toInt = (n.val : ℤ) ∧ c' = c := by
  have s0 := scatter_start0 e c' idx
  rw [resultIdx?_eq_some]
  constructor
  · intro h
    have h0 : scatter_S8192x4096_S4096x1_S4096x4096_1_0_0_1.start (ix2 e c') idx 0 + ((0 : ℕ) : ℤ) = (n.val : ℤ) := h 0
    have h1 : (0 : ℤ) + (c'.val : ℤ) = (c.val : ℤ) := h 1
    rw [s0] at h0
    exact ⟨by omega, Fin.ext (by omega)⟩
  · rintro ⟨ht, rfl⟩ a
    match a with
    | ⟨0, _⟩ =>
      show scatter_S8192x4096_S4096x1_S4096x4096_1_0_0_1.start (ix2 e c') idx 0 + ((0 : ℕ) : ℤ) = (n.val : ℤ)
      rw [s0]; omega
    | ⟨1, _⟩ => exact Int.zero_add _

-- The scatter at an entry: the operand there plus the updates of the edges whose index word is the row, in the column.
theorem scatterAdd_apply (x : FVec Ideal S8192x4096 .f32) (idx : IVec S4096x1 32) (upd : FVec Ideal S4096x4096 .f32)
    (n : Fin 8192) (c : Fin 4096) :
    Host.scatterAdd (F := Ideal) scatter_S8192x4096_S4096x1_S4096x4096_1_0_0_1 x idx upd (ix2 n c)
      = x (ix2 n c) + ∑ e ∈ Finset.univ.filter (fun e : Fin 4096 => (idx (ix2 e (0 : Fin 1))).toInt = (n.val : ℤ)),
          upd (ix2 e c) := by
  unfold Host.scatterAdd
  rw [Ideal.hostScatterAdd_def]
  unfold Ideal.hostScatterAdd
  refine congrArg (x (ix2 n c) + ·) ?_
  rw [Finset.sum_filter, sum_idx2, Finset.sum_filter]
  refine Finset.sum_congr rfl fun e _ => ?_
  by_cases hP : (idx (ix2 e (0 : Fin 1))).toInt = (n.val : ℤ)
  · simp only [scatter_lands_iff, hP, true_and, if_true, Finset.sum_ite_eq', Finset.mem_univ]
  · simp only [scatter_lands_iff, hP, false_and, if_false, Finset.sum_const_zero]

-- The new edge features scattered into a zero array by index words `w`: per node, summed over the edges whose word reads as the node.
theorem scatterSum_apply (z : FVec Ideal S8192x4096 .f32) (w : IVec S4096x1 32) (s : IVec S4096 32)
    (hz : ∀ i, z i = 0) (hw : ∀ e, w (ix2 e (0 : Fin 1)) = s (ix1 e)) (n : Fin 8192) (c : Fin 4096) :
    Host.scatterAdd (F := Ideal) scatter_S8192x4096_S4096x1_S4096x4096_1_0_0_1 z w (val_main_v26 (F := Ideal) x0 x1 x2 x3 x4 x5 x6 x7 x8) (ix2 n c)
      = 0 + ∑ e ∈ Finset.univ.filter (fun e => BitVec.toInt (s (ix1 e)) = (n.val : ℤ)), NE x0 x1 x2 x3 x4 x5 x6 x7 x8 e c := by
  rw [scatterAdd_apply, hz]
  exact congrArg _ (Finset.sum_congr (Finset.filter_congr fun e _ => by rw [hw])
    fun e _ => newEdges_apply x0 x1 x2 x3 x4 x5 x6 x7 x8 e c)

theorem nodeIn_apply (n : Fin 8192) (k : Fin 8264) :
    val_main_v34 (F := Ideal) x0 x1 x2 x3 x4 x5 x6 x7 x8 (ix2 n k)
      = GraphNet.nodeIn (NE x0 x1 x2 x3 x4 x5 x6 x7 x8) (S x3) (R x4) (fun n a => x0 (ix2 n a)) (fun q => x2 (ix2 0 q)) n k := by
  have hk := k.isLt
  unfold GraphNet.nodeIn val_main_v34
  by_cases h64 : k.val < 64
  · rw [dif_pos h64]
    exact PlainCat.cols_apply _ _ 0 (by simp) x0 rfl 0 rfl n k ⟨k.val, h64⟩ (Nat.zero_add _)
  by_cases h4160 : k.val < 4160
  · rw [dif_neg h64, dif_pos h4160]
    exact (PlainCat.cols_apply _ _ 1 (by simp) (val_main_v29 (F := Ideal) x0 x1 x2 x3 x4 x5 x6 x7 x8) rfl 64 rfl n k
      ⟨k.val - 64, by omega⟩ (by show 64 + (k.val - 64) = k.val; omega)).trans
      (scatterSum_apply x0 x1 x2 x3 x4 x5 x6 x7 x8 _ _ x3
        (fun i => by rw [val_main_v27_apply, val_main_cst_apply, Ideal.ofBits_def, Ideal.ofBits_zero_f32])
        (fun e => by rw [val_main_v28_apply, idx28]) n _)
  by_cases h8256 : k.val < 8256
  · rw [dif_neg h64, dif_neg h4160, dif_pos h8256]
    exact (PlainCat.cols_apply _ _ 2 (by simp) (val_main_v32 (F := Ideal) x0 x1 x2 x3 x4 x5 x6 x7 x8) rfl 4160 rfl n k
      ⟨k.val - 4160, by omega⟩ (by show 4160 + (k.val - 4160) = k.val; omega)).trans
      (scatterSum_apply x0 x1 x2 x3 x4 x5 x6 x7 x8 _ _ x4
        (fun i => by rw [val_main_v30_apply, val_main_cst_3_apply, Ideal.ofBits_def, Ideal.ofBits_zero_f32])
        (fun e => by rw [val_main_v31_apply, idx31]) n _)
  rw [dif_neg h64, dif_neg h4160, dif_neg h8256]
  refine (PlainCat.cols_apply _ _ 3 (by simp) (val_main_v33 (F := Ideal) x2) rfl 8256 rfl n k ⟨k.val - 8256, by omega⟩
    (by show 8256 + (k.val - 8256) = k.val; omega)).trans ?_
  rw [val_main_v33_apply, val_main_v0_apply, glob33]

theorem preAgg_apply (n : Fin 8192) (a : Fin 64) :
    val_main_v35 (F := Ideal) x0 x1 x2 x3 x4 x5 x6 x7 x8 x9 (ix2 n a)
      = GraphNet.preAgg (NE x0 x1 x2 x3 x4 x5 x6 x7 x8) (S x3) (R x4) (fun n a => x0 (ix2 n a)) (fun j d => x9 (ix2 j d))
          (fun q => x2 (ix2 0 q)) n a := by
  rw [val_main_v35_apply]
  simp only [lidx35, ridx35, nodeIn_apply]
  rfl

def edgesOut : (⟨S4096x4096, .f32⟩ : BufTy).Contents (Elt Ideal) :=
  fun i => NE x0 x1 x2 x3 x4 x5 x6 x7 x8 (i 0) (i 1)

def nodesOut : (⟨S8192x64, .f32⟩ : BufTy).Contents (Elt Ideal) :=
  fun i => GraphNet.newNodes
    (GraphNet.preAgg (NE x0 x1 x2 x3 x4 x5 x6 x7 x8) (S x3) (R x4) (fun n a => x0 (ix2 n a)) (fun j d => x9 (ix2 j d))
      (fun q => x2 (ix2 0 q)))
    (fun a => x10 (ix1 a)) (fun a d => x11 (ix2 a d)) (fun d => x12 (ix1 d)) (i 0) (i 1)

theorem edgesOut_apply (e j : Fin 4096) : edgesOut x0 x1 x2 x3 x4 x5 x6 x7 x8 (ix2 e j) = NE x0 x1 x2 x3 x4 x5 x6 x7 x8 e j := rfl

theorem nodesOut_apply (n : Fin 8192) (d : Fin 64) :
    nodesOut x0 x1 x2 x3 x4 x5 x6 x7 x8 x9 x10 x11 x12 (ix2 n d)
      = GraphNet.newNodes
          (GraphNet.preAgg (NE x0 x1 x2 x3 x4 x5 x6 x7 x8) (S x3) (R x4) (fun n a => x0 (ix2 n a)) (fun j d => x9 (ix2 j d))
            (fun q => x2 (ix2 0 q)))
          (fun a => x10 (ix1 a)) (fun a d => x11 (ix2 a d)) (fun d => x12 (ix1 d)) n d := rfl

-- The program's second result is the new edge features.
theorem edges_eq : val_main_v26 (F := Ideal) x0 x1 x2 x3 x4 x5 x6 x7 x8 = edgesOut x0 x1 x2 x3 x4 x5 x6 x7 x8 := by
  funext i
  rw [eq_ix2 i]
  exact newEdges_apply x0 x1 x2 x3 x4 x5 x6 x7 x8 _ _

-- The program's first result is the new node features, sums first.
theorem nodes_eq : val_main_v44 (F := Ideal) x0 x1 x2 x3 x4 x5 x6 x7 x8 x9 x10 x11 x12 = nodesOut x0 x1 x2 x3 x4 x5 x6 x7 x8 x9 x10 x11 x12 := by
  funext i
  obtain ⟨n, d, rfl⟩ : ∃ (n : Fin 8192) (d : Fin 64), i = ix2 n d := ⟨i 0, i 1, eq_ix2 i⟩
  rw [nodesOut_apply, val_main_v44_apply, val_main_v43_apply, val_main_v40_apply, val_main_v42_apply, val_main_v41_apply,
    val_main_call3_v0_apply, val_main_call3_cst_apply, bias42]
  simp only [lidx40, ridx40, val_main_v39_apply, val_main_v38_apply, val_main_v37_apply, val_main_v36_apply,
    val_main_call2_v0_apply, val_main_call2_cst_apply, bias37, preAgg_apply, Ideal.maximumf_def, Ideal.addf_def,
    Ideal.ofBits_def, Ideal.ofBits_zero_f32]
  rfl

end Cert.ReferenceIdeal.RefValue

end
-- ==== Proof.lean ====
/-
  The graph-network layer: the kernel program against the plain reference, on the extended reals.
  The edge result is the same two rectified dense layers of the same rows on both sides. For the node result the
  kernel multiplies each edge's new features by the weight rows first and sums per node afterwards, the reference sums
  first; new edge features leave a rectifier, so they are non-negative, and multiplication distributes over sums of
  non-negative extended reals.
-/
import proofs.«430600_j30915174596644_3_alg».proof.Defs
import proofs.«430600_j30915174596644_3_alg».proof.Proof.Gen.Kernel
import proofs.«430600_j30915174596644_3_alg».proof.Proof.Gen.KernelIdeal
import proofs.«430600_j30915174596644_3_alg».proof.Proof.Gen.ReferenceIdeal
import proofs.«430600_j30915174596644_3_alg».proof.Proof.Gen.Pre_finite_inputs
import proofs.«430600_j30915174596644_3_alg».proof.Proof.Kernel.Main
import proofs.«430600_j30915174596644_3_alg».proof.Proof.KernelIdeal.KernelValue
import proofs.«430600_j30915174596644_3_alg».proof.Proof.RefRead

set_option maxRecDepth 16384

noncomputable section

namespace Cert.Proof

open Idealize.ShloMosaic Idealize.ShloMosaic.TcCoe Idealize.SL.Sem Idealize.ShloMosaic.ValueIdx
open Cert.KernelIdeal.Hand Cert.KernelIdeal.HandValue Cert.ReferenceIdeal.RefValue

section Agree

variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)

theorem edges_agree : edgesOut (aNodes m c) (aEdges m c) (aGlob m c) (aSnd m c) (aRcv m c) (aW1 m c) (aB1 m c) (aW2 m c) (aB2 m c) = endVal m ρ c (Proc.devRef .tc Cert.KernelIdeal.main_v29_0) := by
  funext i
  obtain ⟨e, j, rfl⟩ : ∃ (e : Fin 4096) (j : Fin 4096), i = ix2 e j := ⟨i 0, i 1, eq_ix2 i⟩
  exact (kernel_edges m ρ c e j).symm

-- the sums-first first layer is the products-first one, the new edge features being non-negative
theorem nodes_agree : nodesOut (aNodes m c) (aEdges m c) (aGlob m c) (aSnd m c) (aRcv m c) (aW1 m c) (aB1 m c) (aW2 m c) (aB2 m c) (aWn m c) (aNb1 m c) (aWn2 m c) (aNb2 m c) = endVal m ρ c (Proc.devRef .tc Cert.KernelIdeal.main_v32) := by
  funext i
  obtain ⟨n, d, rfl⟩ : ∃ (n : Fin 8192) (d : Fin 64), i = ix2 n d := ⟨i 0, i 1, eq_ix2 i⟩
  rw [nodesOut_apply, kernel_nodes m ρ c (S (aSnd m c)) (R (aRcv m c)) (fun _ _ => Iff.rfl) (fun _ _ => Iff.rfl) n d,
    show NE (aNodes m c) (aEdges m c) (aGlob m c) (aSnd m c) (aRcv m c) (aW1 m c) (aB1 m c) (aW2 m c) (aB2 m c) = kNE m c from rfl,
    funext fun n => funext fun d => GraphNet.preProj_eq_preAgg (kNE m c) (S (aSnd m c)) (R (aRcv m c))
      (fun n a => aNodes m c (ix2 n a)) (fun j d => aWn m c (ix2 j d)) (fun q => aGlob m c (ix2 (0 : Fin 1) q))
      (fun e j => GraphNet.newEdges_nonneg _ _ _ _ _ e j) n d]

end Agree

theorem frame_kernel : Cert.frame_Kernel := fun m ρ _ => Cert.Kernel.Hand.kernel_run m ρ fun s h c =>
  have arg := Cert.Kernel.Hand.arg_kept m ρ h c
  ⟨arg _ (by decide), arg _ (by decide), arg _ (by decide), arg _ (by decide), arg _ (by decide), arg _ (by decide), arg _ (by decide), arg _ (by decide), arg _ (by decide), arg _ (by decide), arg _ (by decide), arg _ (by decide), arg _ (by decide)⟩

theorem frame_kernelIdeal : Cert.frame_KernelIdeal := fun m ρ _ => kernel_run m ρ fun s h c =>
  have arg := arg_kept m ρ h c
  ⟨arg _ (by decide), arg _ (by decide), arg _ (by decide), arg _ (by decide), arg _ (by decide), arg _ (by decide), arg _ (by decide), arg _ (by decide), arg _ (by decide), arg _ (by decide), arg _ (by decide), arg _ (by decide), arg _ (by decide)⟩

theorem frame_referenceIdeal : Cert.frame_ReferenceIdeal := fun m ρ _ =>
  (θ_run Cert.ReferenceIdeal.defs _ _).mono (fun _ h c => (h c).2.2) (Cert.ReferenceIdeal.Value.run (F := Ideal) m ρ)

theorem algebraic : Cert.algebraic_KernelIdeal_ReferenceIdeal := by
  intro m ρ m' ρ' _ hagree
  refine ⟨fun c => endVal m ρ c (Proc.devRef .tc Cert.KernelIdeal.main_v32), fun c => endVal m ρ c (Proc.devRef .tc Cert.KernelIdeal.main_v29_0),
    kernel_run m ρ fun s h c =>
      have arg := arg_kept m ρ h c
      ⟨read_final m ρ _ _ h c _ (by decide), read_final m ρ _ _ h c _ (by decide), arg _ (by decide), arg _ (by decide), arg _ (by decide), arg _ (by decide), arg _ (by decide), arg _ (by decide), arg _ (by decide), arg _ (by decide), arg _ (by decide), arg _ (by decide), arg _ (by decide), arg _ (by decide), arg _ (by decide)⟩,
    (θ_run Cert.ReferenceIdeal.defs _ _).mono (fun r h c => ?_) (Cert.ReferenceIdeal.Value.run (F := Ideal) m' ρ')⟩
  obtain ⟨h0, h1, h2, h3, h4, h5, h6, h7, h8, h9, h10, h11, h12⟩ := hagree c
  refine ⟨(h c).1.trans (((Cert.ReferenceIdeal.Read.val_main_v44_eq (F := Ideal) m' c).trans (nodes_eq _ _ _ _ _ _ _ _ _ _ _ _ _)).trans ?_),
    (h c).2.1.trans (((Cert.ReferenceIdeal.Read.val_main_v26_eq (F := Ideal) _ _ _ _ _ _ _ _ _).trans (edges_eq _ _ _ _ _ _ _ _ _)).trans ?_), (h c).2.2⟩
  · rw [h0, h1, h2, h3, h4, h5, h6, h7, h8, h9, h10, h11, h12]
    exact nodes_agree m ρ c
  · rw [h0, h1, h2, h3, h4, h5, h6, h7, h8]
    exact edges_agree m ρ c

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
